-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1000000 : Shape := ⟨2, ![2, 1000000]⟩
abbrev S100000 : Shape := ⟨1, ![100000]⟩
abbrev S128x64 : Shape := ⟨2, ![128, 64]⟩
abbrev S2x64 : Shape := ⟨2, ![2, 64]⟩
abbrev S64 : Shape := ⟨1, ![64]⟩
abbrev S64x64 : Shape := ⟨2, ![64, 64]⟩
abbrev S128x5 : Shape := ⟨2, ![128, 5]⟩
abbrev S5 : Shape := ⟨1, ![5]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg9 : FVec F S64 .f32) (main_arg10 : FVec F S128x5 .f32) (main_arg11 : FVec F S5 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x5 .f32 := Host.absf main_arg10
  let main_cst_14 : FVec F S_ .f32 := constant S_ .f32 0x7F800000#32
  let main_v40 : FVec F S128x5 .f32 := broadcastInDim S128x5 ![] bcast_S_S128x5 main_cst_14
  let main_v41 : IVec S128x5 1 := cmpf .olt main_v39 main_v40
  let main_c_15 : IVec S_ 1 := constantI S_ 1 1#1
  let main_v42 : IVec S_ 1 := (fun x v => Host.reduce IntOp.andi x v reducesTo_S128x5_S_d0_1 h_S_) main_v41 main_c_15
  let main_v43 : IVec S_ 1 := andi main_v38 main_v42
  let main_v44 : FVec F S5 .f32 := Host.absf main_arg11
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S128x5 .f32) (main_arg11 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x2 .f32) (main_arg1 : IVec S2x1000000 32) (main_arg2 : IVec S100000 32) (main_arg3 : FVec F S128x64 .f32) (main_arg4 : FVec F S2x64 .f32) (main_arg5 : FVec F S64 .f32) (main_arg6 : FVec F S64x64 .f32) (main_arg7 : FVec F S64 .f32) (main_arg8 : FVec F S64x64 .f32) (main_arg9 : FVec F S64 .f32) (main_arg10 : FVec F S128x5 .f32) (main_arg11 : FVec F S5 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x2 : Shape := ⟨2, ![100000, 2]⟩
abbrev S2x1000000 : Shape := ⟨2, ![2, 1000000]⟩
abbrev S100000 : Shape := ⟨1, ![100000]⟩
abbrev S128x64 : Shape := ⟨2, ![128, 64]⟩
abbrev S2x64 : Shape := ⟨2, ![2, 64]⟩
abbrev S64 : Shape := ⟨1, ![64]⟩
abbrev S64x64 : Shape := ⟨2, ![64, 64]⟩
abbrev S128x5 : Shape := ⟨2, ![128, 5]⟩
abbrev S5 : Shape := ⟨1, ![5]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S10000x2 : Shape := ⟨2, ![10000, 2]⟩
abbrev S10000x64 : Shape := ⟨2, ![10000, 64]⟩
abbrev S1100000x64 : Shape := ⟨2, ![1100000, 64]⟩
abbrev S1x64 : Shape := ⟨2, ![1, 64]⟩
abbrev S100000x1 : Shape := ⟨2, ![100000, 1]⟩
abbrev S1x5 : Shape := ⟨2, ![1, 5]⟩
abbrev S10000x1 : Shape := ⟨2, ![10000, 1]⟩
abbrev S128x1 : Shape := ⟨2, ![128, 1]⟩
abbrev S1x128 : Shape := ⟨2, ![1, 128]⟩
abbrev S10000x128 : Shape := ⟨2, ![10000, 128]⟩
abbrev S128x10000 : Shape := ⟨2, ![128, 10000]⟩
abbrev S128x128 : Shape := ⟨2, ![128, 128]⟩
abbrev S128 : Shape := ⟨1, ![128]⟩

abbrev nBuf : Space → Nat
  | .hbm => 112
  | .vmem => 40
  | .smem => 0
  | _ => 0

abbrev bufTy : (tb : Table) → Fin (tcTables nBuf tb) → BufTy
  | .hbm, ⟨0, _⟩ => ⟨S100000x2, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S2x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x5, .f32⟩
  | .hbm, ⟨11, _⟩ => ⟨S5, .f32⟩
  | .hbm, ⟨12, _⟩ => ⟨S100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S1x1000000, .i32⟩
  | .hbm, ⟨17, _⟩ => ⟨S1000000, .i32⟩
  | .hbm, ⟨18, _⟩ => ⟨S1100000, .i32⟩
  | .hbm, ⟨19, _⟩ => ⟨S_, .f32⟩
  | .hbm, ⟨20, _⟩ => ⟨S1100000, .f32⟩
  | .hbm, ⟨21, _⟩ => ⟨S_, .f32⟩
  | .hbm, ⟨22, _⟩ => ⟨S100000, .f32⟩
  | .hbm, ⟨23, _⟩ => ⟨S1100000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000, .f32⟩
  | .hbm, ⟨42, _⟩ => ⟨S_, .i32⟩
  | .hbm, ⟨43, _⟩ => ⟨S1100000, .i32⟩
  | .hbm, ⟨44, _⟩ => ⟨S1100000, .i1⟩
  | .hbm, ⟨45, _⟩ => ⟨S_, .i32⟩
  | .hbm, ⟨46, _⟩ => ⟨S1100000, .i32⟩
  | .hbm, ⟨47, _⟩ => ⟨S1100000, .i32⟩
  | .hbm, ⟨48, _⟩ => ⟨S1100000, .i32⟩
  | .hbm, ⟨49, _⟩ => ⟨S1100000x1, .i32⟩
  | .hbm, ⟨50, _⟩ => ⟨S1100000, .f32⟩
  | .hbm, ⟨51, _⟩ => ⟨S1100000, .f32⟩
  | .hbm, ⟨52, _⟩ => ⟨S100000x64, .f32⟩
  | .hbm, ⟨53, _⟩ => ⟨S1100000x1, .f32⟩
  | .hbm, ⟨54, _⟩ => ⟨S_, .i32⟩
  | .hbm, ⟨55, _⟩ => ⟨S1100000, .i32⟩
  | .hbm, ⟨56, _⟩ => ⟨S1100000, .i1⟩
  | .hbm, ⟨57, _⟩ => ⟨S_, .i32⟩
  | .hbm, ⟨58, _⟩ => ⟨S1100000, .i32⟩
  | .hbm, ⟨59, _⟩ => ⟨S1100000, .i32⟩
  | .hbm, ⟨60, _⟩ => ⟨S1100000, .i32⟩
  | .hbm, ⟨61, _⟩ => ⟨S1100000x1, .i32⟩
  | .hbm, ⟨62, _⟩ => ⟨S1100000x64, .f32⟩
  | .hbm, ⟨63, _⟩ => ⟨S1100000x64, .f32⟩
  | .hbm, ⟨64, _⟩ => ⟨S1100000x64, .f32⟩
  | .hbm, ⟨65, _⟩ => ⟨S_, .f32⟩
  | .hbm, ⟨66, _⟩ => ⟨S100000x64, .f32⟩
  | .hbm, ⟨67, _⟩ => ⟨S1100000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S1100000x1, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x64, .f32⟩
  | .hbm, ⟨82, _⟩ => ⟨S1100000x64, .f32⟩
  | .hbm, ⟨83, _⟩ => ⟨S1100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1100000x1, .f32⟩
  | .hbm, ⟨92, _⟩ => ⟨S_, .i32⟩
  | .hbm, ⟨93, _⟩ => ⟨S1100000, .i32⟩
  | .hbm, ⟨94, _⟩ => ⟨S1100000, .i1⟩
  | .hbm, ⟨95, _⟩ => ⟨S_, .i32⟩
  | .hbm, ⟨96, _⟩ => ⟨S1100000, .i32⟩
  | .hbm, ⟨97, _⟩ => ⟨S1100000, .i32⟩
  | .hbm, ⟨98, _⟩ => ⟨S1100000, .i32⟩
  | .hbm, ⟨99, _⟩ => ⟨S1100000x1, .i32⟩
  | .hbm, ⟨100, _⟩ => ⟨S1100000x64, .f32⟩
  | .hbm, ⟨101, _⟩ => ⟨S1100000x64, .f32⟩
  | .hbm, ⟨102, _⟩ => ⟨S1100000x64, .f32⟩
  | .hbm, ⟨103, _⟩ => ⟨S_, .f32⟩
  | .hbm, ⟨104, _⟩ => ⟨S100000x64, .f32⟩
  | .hbm, ⟨105, _⟩ => ⟨S1100000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x1, .i32⟩
  | .hbm, ⟨110, _⟩ => ⟨S1x5, .f32⟩
  | .hbm, ⟨111, _⟩ => ⟨S128x5, .f32⟩
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x1, .i32⟩
  | .local _ .vmem, ⟨33, _⟩ => ⟨S10000x1, .i32⟩
  | .local _ .vmem, ⟨34, _⟩ => ⟨S128x64, .f32⟩
  | .local _ .vmem, ⟨35, _⟩ => ⟨S128x5, .f32⟩
  | .local _ .vmem, ⟨36, _⟩ => ⟨S1x5, .f32⟩
  | .local _ .vmem, ⟨37, _⟩ => ⟨S128x5, .f32⟩
  | .local _ .vmem, ⟨38, _⟩ => ⟨S128x64, .f32⟩
  | .local _ .vmem, ⟨39, _⟩ => ⟨S128x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg5_0 : Ref sig .tc := ⟨.vmem, 37, rfl⟩
abbrev cc6_scratch0 : Ref sig .tc := ⟨.vmem, 38, rfl⟩
abbrev cc6_scratch1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36
abbrev cc6_sem5_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_14 : BitVec 32 := 0#32
  let v31 : BitVec 1 := Scalar.cmpi .ne v30 c0_i32_14
  v31

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x5 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x5 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x5 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  shapeCasts_S5_S1x5 : S5.ShapeCasts S1x5
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S1x128_d1_w32 : S1x128.Iotas .tc 32 [1]
  broadcasts_S10000x1_S10000x128 : S10000x1.Broadcasts S10000x128
  broadcasts_S1x128_S10000x128 : S1x128.Broadcasts S10000x128
  natLt_1_32 : 1 < 32
  transposes_S10000x128_p1_0_S128x10000 : S10000x128.Transposes [1, 0] S128x10000
  broadcasts_S128x1_S128x64 : S128x1.Broadcasts S128x64
  concatenates_S128x64_S128x64_S128x128_d1 : Shape.Concatenates [S128x64, S128x64] S128x128 1
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S128x5 : S1x5.Broadcasts S128x5
  reduces_S128x5_S128 : S128x5.Reduces [1] S128
  shapeCasts_S128_S128x1 : S128.ShapeCasts S128x1
  broadcasts_S128x1_S128x5 : S128x1.Broadcasts S128x5
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x2_S2x64_S10000x64_1_0_0_1_n_n_wf : DotDims.WF S10000x2 S2x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x64_S10000x64_1_0_0_1_n_n_wf : DotDims.WF S10000x64 S64x64 S10000x64 [1] [0] [0] [1] [] []
  dot_S128x10000_S10000x64_S128x64_1_0_0_1_n_n_wf : DotDims.WF S128x10000 S10000x64 S128x64 [1] [0] [0] [1] [] []
  dot_S128x10000_S10000x1_S128x1_1_0_0_1_n_n_wf : DotDims.WF S128x10000 S10000x1 S128x1 [1] [0] [0] [1] [] []
  dot_S128x128_S128x5_S128x5_1_0_0_1_n_n_wf : DotDims.WF S128x128 S128x5 S128x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x5.size a ≤ S128x5.size a
  hwx6_3 : ∀ i : grid6.Coords, EltTy.bits .f32 = 32 ∨ (Rect.block (s := S128x5) S128x5.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x5.size a ≤ S1x5.size a
  hwx6_4 : ∀ i : grid6.Coords, EltTy.bits .f32 = 32 ∨ (Rect.block (s := S1x5) S1x5.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x5.size a ≤ S128x5.size a
  hwx6_5 : ∀ i : grid6.Coords, EltTy.bits .f32 = 32 ∨ (Rect.block (s := S128x5) S128x5.size (cc6_transform_5 i) (hinb6_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S128x10000_S10000x64_S128x64_1_0_0_1_n_n : DotDims S128x10000 S10000x64 S128x64 where
  lhsContracting := [1]
  rhsContracting := [0]
  lhsNonContracting := [0]
  rhsNonContracting := [1]
  lhsBatch := []
  rhsBatch := []
  wf := dot_S128x10000_S10000x64_S128x64_1_0_0_1_n_n_wf
def dot_S128x10000_S10000x1_S128x1_1_0_0_1_n_n : DotDims S128x10000 S10000x1 S128x1 where
  lhsContracting := [1]
  rhsContracting := [0]
  lhsNonContracting := [0]
  rhsNonContracting := [1]
  lhsBatch := []
  rhsBatch := []
  wf := dot_S128x10000_S10000x1_S128x1_1_0_0_1_n_n_wf
def dot_S128x128_S128x5_S128x5_1_0_0_1_n_n : DotDims S128x128 S128x5 S128x5 where
  lhsContracting := [1]
  rhsContracting := [0]
  lhsNonContracting := [0]
  rhsNonContracting := [1]
  lhsBatch := []
  rhsBatch := []
  wf := dot_S128x128_S128x5_S128x5_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg3) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x5.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S1x5.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v80) S128x5.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S100000x2 : Shape := ⟨2, ![100000, 2]⟩
abbrev S2x1000000 : Shape := ⟨2, ![2, 1000000]⟩
abbrev S100000 : Shape := ⟨1, ![100000]⟩
abbrev S128x64 : Shape := ⟨2, ![128, 64]⟩
abbrev S2x64 : Shape := ⟨2, ![2, 64]⟩
abbrev S64 : Shape := ⟨1, ![64]⟩
abbrev S64x64 : Shape := ⟨2, ![64, 64]⟩
abbrev S128x5 : Shape := ⟨2, ![128, 5]⟩
abbrev S5 : Shape := ⟨1, ![5]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S128x128 : Shape := ⟨2, ![128, 128]⟩
abbrev S1x5 : Shape := ⟨2, ![1, 5]⟩

abbrev nBuf : Space → Nat
  | .hbm => 154
  | .vmem => 0
  | .smem => 0
  | _ => 0

abbrev hbmTy0_0 (i : Nat) : BufTy := match i % 128 with
  | 0 => ⟨S100000x2, .f32⟩
  | 1 => ⟨S2x1000000, .i32⟩
  | 2 => ⟨S100000, .i32⟩
  | 3 => ⟨S128x64, .f32⟩
  | 4 => ⟨S2x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x5, .f32⟩
  | 11 => ⟨S5, .f32⟩
  | 12 => ⟨S100000, .i32⟩
  | 13 => ⟨S1x1000000, .i32⟩
  | 14 => ⟨S1000000, .i32⟩
  | 15 => ⟨S1100000, .i32⟩
  | 16 => ⟨S1x1000000, .i32⟩
  | 17 => ⟨S1000000, .i32⟩
  | 18 => ⟨S1100000, .i32⟩
  | 19 => ⟨S_, .f32⟩
  | 20 => ⟨S1100000, .f32⟩
  | 21 => ⟨S_, .f32⟩
  | 22 => ⟨S100000, .f32⟩
  | 23 => ⟨S1100000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S1100000, .f32⟩
  | 52 => ⟨S100000x64, .f32⟩
  | 53 => ⟨S1100000x1, .f32⟩
  | 54 => ⟨S_, .i32⟩
  | 55 => ⟨S1100000, .i32⟩
  | 56 => ⟨S1100000, .i1⟩
  | 57 => ⟨S_, .i32⟩
  | 58 => ⟨S1100000, .i32⟩
  | 59 => ⟨S1100000, .i32⟩
  | 60 => ⟨S1100000, .i32⟩
  | 61 => ⟨S1100000x1, .i32⟩
  | 62 => ⟨S1100000x64, .f32⟩
  | 63 => ⟨S1100000x64, .f32⟩
  | 64 => ⟨S1100000x64, .f32⟩
  | 65 => ⟨S_, .f32⟩
  | 66 => ⟨S100000x64, .f32⟩
  | 67 => ⟨S1100000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S1100000x1, .f32⟩
  | 77 => ⟨S_, .i32⟩
  | 78 => ⟨S1100000, .i32⟩
  | 79 => ⟨S1100000, .i1⟩
  | 80 => ⟨S_, .i32⟩
  | 81 => ⟨S1100000, .i32⟩
  | 82 => ⟨S1100000, .i32⟩
  | 83 => ⟨S1100000, .i32⟩
  | 84 => ⟨S1100000x1, .i32⟩
  | 85 => ⟨S1100000x64, .f32⟩
  | 86 => ⟨S1100000x64, .f32⟩
  | 87 => ⟨S1100000x64, .f32⟩
  | 88 => ⟨S_, .f32⟩
  | 89 => ⟨S100000x64, .f32⟩
  | 90 => ⟨S1100000x1, .i32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S1100000x1, .f32⟩
  | 100 => ⟨S_, .i32⟩
  | 101 => ⟨S1100000, .i32⟩
  | 102 => ⟨S1100000, .i1⟩
  | 103 => ⟨S_, .i32⟩
  | 104 => ⟨S1100000, .i32⟩
  | 105 => ⟨S1100000, .i32⟩
  | 106 => ⟨S1100000, .i32⟩
  | 107 => ⟨S1100000x1, .i32⟩
  | 108 => ⟨S1100000x64, .f32⟩
  | 109 => ⟨S1100000x64, .f32⟩
  | 110 => ⟨S1100000x64, .f32⟩
  | 111 => ⟨S_, .f32⟩
  | 112 => ⟨S100000x64, .f32⟩
  | 113 => ⟨S1100000x1, .i32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S128x64, .f32⟩
  | 120 => ⟨S100000x1, .i32⟩
  | 121 => ⟨S128x64, .f32⟩
  | 122 => ⟨S_, .f32⟩
  | 123 => ⟨S100000, .f32⟩
  | 124 => ⟨S_, .f32⟩
  | 125 => ⟨S128, .f32⟩
  | 126 => ⟨S100000x1, .i32⟩
  | 127 => ⟨S128, .f32⟩
  | _ => ⟨S100000x2, .f32⟩

abbrev hbmTy0_1 (i : Nat) : BufTy := match i % 128 with
  | 0 => ⟨S_, .f32⟩
  | 1 => ⟨S128, .f32⟩
  | 2 => ⟨S128, .f32⟩
  | 3 => ⟨S128x1, .f32⟩
  | 4 => ⟨S128x64, .f32⟩
  | 5 => ⟨S128x64, .f32⟩
  | 6 => ⟨S128x128, .f32⟩
  | 7 => ⟨S128x5, .f32⟩
  | 8 => ⟨S1x5, .f32⟩
  | 9 => ⟨S128x5, .f32⟩
  | 10 => ⟨S128x5, .f32⟩
  | 11 => ⟨S_, .f32⟩
  | 12 => ⟨S128, .f32⟩
  | 13 => ⟨S_, .f32⟩
  | 14 => ⟨S128, .f32⟩
  | 15 => ⟨S128, .f32⟩
  | 16 => ⟨S128x1, .f32⟩
  | 17 => ⟨S128x5, .f32⟩
  | 18 => ⟨S128x5, .f32⟩
  | 19 => ⟨S128x5, .f32⟩
  | 20 => ⟨S_, .f32⟩
  | 21 => ⟨S128, .f32⟩
  | 22 => ⟨S128x1, .f32⟩
  | 23 => ⟨S128x1, .f32⟩
  | 24 => ⟨S128x5, .f32⟩
  | 25 => ⟨S128x5, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_18 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_call3_cst : Ref sig .tc := ⟨.hbm, 139, rfl⟩
abbrev main_call3_v0 : Ref sig .tc := ⟨.hbm, 140, rfl⟩
abbrev main_call3_cst_0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_cst_1 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_v100 : Ref sig .tc := ⟨.hbm, 153, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  concatenates_S128x64_S128x64_S128x128_d1 : Shape.Concatenates [S128x64, S128x64] S128x128 1
  bcast_S5_S1x5_1 : S5.BroadcastsInDim S1x5 (![1] : Fin 1 → Fin S1x5.rank)
  bcast_S1x5_S128x5_0_1 : S1x5.BroadcastsInDim S128x5 (![0, 1] : Fin 2 → Fin S128x5.rank)
  reducesTo_S128x5_S128_d1 : S128x5.ReducesTo [1] S128
  h_S_ : 0 < S_.numel
  bcast_S128x1_S128x5_0_1 : S128x1.BroadcastsInDim S128x5 (![0, 1] : Fin 2 → Fin S128x5.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x2_S2x64_S100000x64_1_0_0_1_n_n_wf : DotDims.WF S100000x2 S2x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x128_S128x5_S128x5_1_0_0_1_n_n_wf : DotDims.WF S128x128 S128x5 S128x5 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x5_S128x5_1_0_0_1_n_n : DotDims S128x128 S128x5 S128x5 where
  lhsContracting := [1]
  rhsContracting := [0]
  lhsNonContracting := [0]
  rhsNonContracting := [1]
  lhsBatch := []
  rhsBatch := []
  wf := dot_S128x128_S128x5_S128x5_1_0_0_1_n_n_wf

class Facts : Prop extends Facts₀ where

variable [Facts]
-- ==== Proof.K.A0.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x2 := Rect.unit (s := S10000x2) ![0, 0] S10000x2.size inb_S10000x2_S10000x2_0_0
abbrev r0_1 : Rect S2x64 := Rect.unit (s := S2x64) ![0, 0] S2x64.size inb_S2x64_S2x64_0_0
abbrev r0_2 : Rect S10000x64 := Rect.unit (s := S10000x64) ![0, 0] S10000x64.size inb_S10000x64_S10000x64_0_0

def out0_2 (x0 : Vec F S10000x2 .f32) (x1 : Vec F S2x64 .f32) : Vec F S10000x64 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in

theorem sound_kernel0 (c : Dev nD) (E : Set ℕ) (i : grid0.Coords) (arg0 : Memref sig .tc .vmem S10000x2 .f32) (harg0 : arg0.IsWhole) (arg1 : Memref sig .tc .vmem S2x64 .f32) (harg1 : arg1.IsWhole) (arg2 : Memref sig .tc .vmem S10000x64 .f32) (harg2 : arg2.IsWhole)
    (x0 : Vec F S10000x2 .f32) (x1 : Vec F S2x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.A1.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S10000x64 := Rect.unit (s := S10000x64) ![0, 0] S10000x64.size inb_S10000x64_S10000x64_0_0

def out1_2 (x0 : Vec F S10000x64 .f32) (x1 : Vec F S1x64 .f32) : Vec F S10000x64 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

set_option maxHeartbeats 1000000 in

theorem sound_kernel1 (c : Dev nD) (E : Set ℕ) (i : grid1.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1_kernel i arg0 harg0 arg1 harg1 arg2 harg2) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.A2.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x64 := Rect.unit (s := S10000x64) ![0, 0] S10000x64.size inb_S10000x64_S10000x64_0_0

def out2_2 (x0 : Vec F S10000x64 .f32) (x1 : Vec F S64x64 .f32) : Vec F S10000x64 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

set_option maxHeartbeats 1000000 in

theorem sound_kernel2 (c : Dev nD) (E : Set ℕ) (i : grid2.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.A3.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S10000x64 := Rect.unit (s := S10000x64) ![0, 0] S10000x64.size inb_S10000x64_S10000x64_0_0

def out3_2 (x0 : Vec F S10000x64 .f32) (x1 : Vec F S1x64 .f32) : Vec F S10000x64 .f32 :=
  View.canon [⟨r3_2, k3_pay1 (View.ld x0 r3_0) (View.ld x1 r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem cover3_2 (p0 : Vec F S10000x64 .f32) (y : S10000x64.Idx) :
    ∃ pc ∈ ([⟨r3_2, p0⟩] : List (View.Piece (Elt F) S10000x64 .f32)), y ∈ pc.1.set :=
  View.cover_of_tiled [⟨r3_2, p0⟩] S10000x64.size (by rfl) y

set_option maxHeartbeats 1000000 in

theorem sound_kernel3 (c : Dev nD) (E : Set ℕ) (i : grid3.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3_kernel i arg0 harg0 arg1 harg1 arg2 harg2) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.A4.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x64 := Rect.unit (s := S10000x64) ![0, 0] S10000x64.size inb_S10000x64_S10000x64_0_0

def out4_2 (x0 : Vec F S10000x64 .f32) (x1 : Vec F S64x64 .f32) : Vec F S10000x64 .f32 :=
  View.canon [⟨r4_2, k4_pay1 (View.ld x0 r4_0) (View.ld x1 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem cover4_2 (p0 : Vec F S10000x64 .f32) (y : S10000x64.Idx) :
    ∃ pc ∈ ([⟨r4_2, p0⟩] : List (View.Piece (Elt F) S10000x64 .f32)), y ∈ pc.1.set :=
  View.cover_of_tiled [⟨r4_2, p0⟩] S10000x64.size (by rfl) y

set_option maxHeartbeats 1000000 in

theorem sound_kernel4 (c : Dev nD) (E : Set ℕ) (i : grid4.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__linear_kernel i arg0 harg0 arg1 harg1 arg2 harg2) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.K.A5.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S10000x64 := Rect.unit (s := S10000x64) ![0, 0] S10000x64.size inb_S10000x64_S10000x64_0_0

def out5_2 (x0 : Vec F S10000x64 .f32) (x1 : Vec F S1x64 .f32) : Vec F S10000x64 .f32 :=
  View.canon [⟨r5_2, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem cover5_2 (p0 : Vec F S10000x64 .f32) (y : S10000x64.Idx) :
    ∃ pc ∈ ([⟨r5_2, p0⟩] : List (View.Piece (Elt F) S10000x64 .f32)), y ∈ pc.1.set :=
  View.cover_of_tiled [⟨r5_2, p0⟩] S10000x64.size (by rfl) y

set_option maxHeartbeats 1000000 in

theorem sound_kernel5 (c : Dev nD) (E : Set ℕ) (i : grid5.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5_kernel i arg0 harg0 arg1 harg1 arg2 harg2) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.K.R6Runs.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 10 = 0 :=
  (by decide +kernel : ∀ t : Fin grid6.N, cond6_0 (grid6.coords t) ↔ t.val % 10 = 0)

abbrev cond6_1 (i : grid6.Coords) : Prop := k6_cond2 i = 1#1

theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel

theorem idleAt6_5_A : ∀ t : Fin cfg6.N, cond6_0 (grid6.coords t) → ¬cond6_1 (grid6.coords t) → cfg6.idle 5 (grid6.coords t) = true := by decide +kernel
theorem noFlush6_5_A : ∀ t : Fin cfg6.N, cond6_0 (grid6.coords t) → ¬cond6_1 (grid6.coords t) → (cfg6.win 5).flush t = false := by decide +kernel

theorem idleAt6_5_B : ∀ t : Fin cfg6.N, ¬cond6_0 (grid6.coords t) → ¬cond6_1 (grid6.coords t) → cfg6.idle 5 (grid6.coords t) = true := by decide +kernel
theorem noFlush6_5_B : ∀ t : Fin cfg6.N, ¬cond6_0 (grid6.coords t) → ¬cond6_1 (grid6.coords t) → (cfg6.win 5).flush t = false := by decide +kernel

theorem liveAt6_5_C : ∀ t : Fin cfg6.N, ¬cond6_0 (grid6.coords t) → cond6_1 (grid6.coords t) → cfg6.idle 5 (grid6.coords t) = false := by decide +kernel

abbrev VO6_5 : View sig .tc .vmem S128x5 .f32 := (Memref.whole cc6_stg5_0 : Memref sig .tc .vmem S128x5 .f32).view

abbrev ms6_0 (t : Fin cfg6.N) : Memref sig .tc .vmem S10000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S10000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x5 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x5 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S128x5 .f32 := win6_5.stage (cfg6.slots t 5)
abbrev hs6_5 (t : Fin cfg6.N) : (ms6_5 t).IsWhole := hstage6_5 ((cfg6.slots t 5).cast nbuf6_5)

abbrev scM6_0 : Memref sig .tc .vmem S128x64 .f32 := Memref.whole cc6_scratch0
abbrev scM6_1 : Memref sig .tc .vmem S128x1 .f32 := Memref.whole cc6_scratch1
abbrev VS6_0 : View sig .tc .vmem S128x64 .f32 := scM6_0.view
abbrev VS6_1 : View sig .tc .vmem S128x1 .f32 := scM6_1.view

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

set_option maxHeartbeats 1000000 in

section

variable (c : Dev nD) (i : grid6.Coords) (arg1 : Memref sig .tc .vmem S10000x64 .f32) (harg1 : arg1.IsWhole) (arg2 : Memref sig .tc .vmem S10000x1 .i32) (harg2 : arg2.IsWhole) (arg3 : Memref sig .tc .vmem S128x64 .f32) (harg3 : arg3.IsWhole) (arg4 : Memref sig .tc .vmem S128x5 .f32) (harg4 : arg4.IsWhole) (arg5 : Memref sig .tc .vmem S1x5 .f32) (harg5 : arg5.IsWhole) (arg6 : Memref sig .tc .vmem S128x5 .f32) (harg6 : arg6.IsWhole) (arg7 : Memref sig .tc .vmem S128x64 .f32) (harg7 : arg7.IsWhole) (arg8 : Memref sig .tc .vmem S128x1 .f32) (harg8 : arg8.IsWhole)

noncomputable def kernelRun6_A (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) :
    Σ' (L5 : List (View.Piece (Elt F) S128x5 .f32)) (LS0 : List (View.Piece (Elt F) S128x64 .f32)), { LS1 : List (View.Piece (Elt F) S128x1 .f32) //
      ∀ (xi5 : Vec F S128x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7 arg8 harg8) K } := by
  refine ⟨[], ?_, ?_, fun xi5 E K => ?run⟩
  case run =>
    simp only [cc6__pool_classify_kernel_eq_skeleton]; unfold cc6__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun6_B (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    Σ' (L5 : List (View.Piece (Elt F) S128x5 .f32)) (LS0 : List (View.Piece (Elt F) S128x64 .f32)), { LS1 : List (View.Piece (Elt F) S128x1 .f32) //
      ∀ (xi5 : Vec F S128x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7 arg8 harg8) K } := by
  refine ⟨[], ?_, ?_, fun xi5 E K => ?run⟩
  case run =>
    simp only [cc6__pool_classify_kernel_eq_skeleton]; unfold cc6__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun6_C (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    Σ' (L5 : List (View.Piece (Elt F) S128x5 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7 arg8 harg8) K } := by
  refine ⟨?_, ?_, ?_, fun E K => ?run⟩
  case run =>
    simp only [cc6__pool_classify_kernel_eq_skeleton]; unfold cc6__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end

end Cert.Kernel.Frm

end
-- ==== Proof.K.R6.lean ====
import proofs.«430252_j4990751998361_2_alg».proof.Proof.K.R6Runs
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid6.Coords) (arg1 : Memref sig .tc .vmem S10000x64 .f32) (harg1 : arg1.IsWhole) (arg2 : Memref sig .tc .vmem S10000x1 .i32) (harg2 : arg2.IsWhole) (arg3 : Memref sig .tc .vmem S128x64 .f32) (harg3 : arg3.IsWhole) (arg4 : Memref sig .tc .vmem S128x5 .f32) (harg4 : arg4.IsWhole) (arg5 : Memref sig .tc .vmem S1x5 .f32) (harg5 : arg5.IsWhole) (arg6 : Memref sig .tc .vmem S128x5 .f32) (harg6 : arg6.IsWhole) (arg7 : Memref sig .tc .vmem S128x64 .f32) (harg7 : arg7.IsWhole) (arg8 : Memref sig .tc .vmem S128x1 .f32) (harg8 : arg8.IsWhole)

def out6_A_5 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) : Vec F S128x5 .f32 :=
  VO6_5.read (Elt F) (VO6_5.writes (Elt F) VO6_5.junk (kernelRun6_A c i arg1 harg1 arg2 harg2 arg3 harg3 arg4 harg4 arg5 harg5 arg6 harg6 arg7 harg7 arg8 harg8 hc0 hc1 x0 x1 x2 x3 x4).1)

theorem scover6_A_0 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) (y : S128x64.Idx) :
    ∃ pc ∈ (kernelRun6_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun6_A c i arg1 harg1 arg2 harg2 arg3 harg3 arg4 harg4 arg5 harg5 arg6 harg6 arg7 harg7 arg8 harg8 hc0 hc1 x0 x1 x2 x3 x4).2.1 S128x64.size (by sl_kernel_rfl) y

def sout6_A_0 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) : Vec F S128x64 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2 x3 x4).2.1)

theorem scover6_A_1 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) (y : S128x1.Idx) :
    ∃ pc ∈ (kernelRun6_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun6_A c i arg1 harg1 arg2 harg2 arg3 harg3 arg4 harg4 arg5 harg5 arg6 harg6 arg7 harg7 arg8 harg8 hc0 hc1 x0 x1 x2 x3 x4).2.2.1 S128x1.size (by sl_kernel_rfl) y

def sout6_A_1 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) : Vec F S128x1 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2 x3 x4).2.2.1)

def out6_B_5 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x5 .f32 :=
  VO6_5.read (Elt F) (VO6_5.writes (Elt F) VO6_5.junk (kernelRun6_B c i arg1 harg1 arg2 harg2 arg3 harg3 arg4 harg4 arg5 harg5 arg6 harg6 arg7 harg7 arg8 harg8 hc0 hc1 x0 x1 x2 x3 x4 xs0 xs1).1)

theorem scover6_B_0 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x64.Idx) :
    ∃ pc ∈ (kernelRun6_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 x4 xs0 xs1).2.1 S128x64.size (by sl_kernel_rfl) y

def sout6_B_0 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x64 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 x3 x4 xs0 xs1).2.1)

theorem scover6_B_1 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x1.Idx) :
    ∃ pc ∈ (kernelRun6_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 x4 xs0 xs1).2.2.1 S128x1.size (by sl_kernel_rfl) y

def sout6_B_1 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x1 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 x3 x4 xs0 xs1).2.2.1)

theorem cover6_C_5 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x5.Idx) :
    ∃ pc ∈ (kernelRun6_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 xs0 xs1).1 S128x5.size (by sl_kernel_rfl) y

def out6_C_5 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x5 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 x3 x4 xs0 xs1).1)

theorem scover6_C_0 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x64.Idx) :
    ∃ pc ∈ (kernelRun6_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 xs0 xs1).2.1 S128x64.size (by sl_kernel_rfl) y

def sout6_C_0 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x64 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 x3 x4 xs0 xs1).2.1)

theorem scover6_C_1 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x1.Idx) :
    ∃ pc ∈ (kernelRun6_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 xs0 xs1).2.2.1 S128x1.size (by sl_kernel_rfl) y

def sout6_C_1 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x1 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 x3 x4 xs0 xs1).2.2.1)

end

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def outsAt6 (c : Dev nD) : (n : ℕ) → n < cfg6.N → Vec F S128x5 .f32 × Vec F S128x64 .f32 × Vec F S128x1 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)
      else
        (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)

theorem outsAt6_A (c : Dev nD) (t : Fin cfg6.N) (h0 : t.val % 10 = 0) (h1 : ¬t.val % 10 = 9) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (by exfalso; have hN : n + 1 < 10 := lt_of_lt_of_eq hn (show cfg6.N = 10 from N_6); (try dsimp only at h0); omega)

theorem outsAt6_B (c : Dev nD) (t : Fin cfg6.N) (h0 : ¬t.val % 10 = 0) (h1 : ¬t.val % 10 = 9) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(iprop(owns (c : Thread nD τ) scM6_0 fullShare (outsAt6 V c n hn).2.1 ∗ owns (c : Thread nD τ) scM6_1 fullShare (outsAt6 V c n hn).2.2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (outsAt6 V c n hn).2.1 ∗ owns (c : Thread nD τ) scM6_1 fullShare (outsAt6 V c n hn).2.2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (outsAt6 V c (n - 1) (by omega)).2.1 ∗ owns (c : Thread nD τ) scM6_1 fullShare (outsAt6 V c (n - 1) (by omega)).2.2) ∗ rest6 c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

theorem leaves6_0 (c : Dev nD) (t : Fin cfg6.N) :
    (dat6 V c).leavesExact 0 t = owns (c : Thread nD τ) (ms6_0 t) fullShare (iblk6 V c 0 t) := by
  unfold Dat.leavesExact; rw [liveAt6_0 t, after6_0]

theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

theorem leaves6_1 (c : Dev nD) (t : Fin cfg6.N) :
    (dat6 V c).leavesExact 1 t = owns (c : Thread nD τ) (ms6_1 t) fullShare (iblk6 V c 1 t) := by
  unfold Dat.leavesExact; rw [liveAt6_1 t, after6_1]

theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

theorem leaves6_2 (c : Dev nD) (t : Fin cfg6.N) :
    (dat6 V c).leavesExact 2 t = owns (c : Thread nD τ) (ms6_2 t) fullShare (iblk6 V c 2 t) := by
  unfold Dat.leavesExact; rw [liveAt6_2 t, after6_2]

theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

theorem leaves6_3 (c : Dev nD) (t : Fin cfg6.N) :
    (dat6 V c).leavesExact 3 t = owns (c : Thread nD τ) (ms6_3 t) fullShare (iblk6 V c 3 t) := by
  unfold Dat.leavesExact; rw [liveAt6_3 t, after6_3]

theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)

theorem leaves6_4 (c : Dev nD) (t : Fin cfg6.N) :
    (dat6 V c).leavesExact 4 t = owns (c : Thread nD τ) (ms6_4 t) fullShare (iblk6 V c 4 t) := by
  unfold Dat.leavesExact; rw [liveAt6_4 t, after6_4]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [leaves6_0, leaves6_1, leaves6_2, leaves6_3, leaves6_4]
  have hN : t.val < 10 := lt_of_lt_of_eq t.isLt (show cfg6.N = 10 from N_6)
  by_cases h0 : t.val % 10 = 0
  · by_cases h1 : t.val % 10 = 9
    · exfalso; omega
    · rw [Dat.leavesExact_idle (dat6 V c) 5 t (idleAt6_5_A t ((hcond6_0 t).mpr h0) (fun h => h1 ((hcond6_1 t).mp h))) (noFlush6_5_A t ((hcond6_0 t).mpr h0) (fun h => h1 ((hcond6_1 t).mp h)))]
      rw [outsAt6_A V c t h0 h1]
      unfold sout6_A_0 sout6_A_1; (try dsimp only)
      have hz : t.val = 0 := by omega
      · rw [PhiS6_castSucc V c t, PhiS6_zero V c _ _ hz, PhiA6_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := by omega
    by_cases h1 : t.val % 10 = 9
    · rw [show (dat6 V c).leavesExact 5 t = owns (c : Thread nD τ) (ms6_5 t) fullShare ((dat6 V c).after 5 t) from by
        unfold Dat.leavesExact; rw [liveAt6_5_C t (fun h => h0 ((hcond6_0 t).mp h)) ((hcond6_1 t).mpr h1)], after6_5]
      rw [outsAt6_C V c t h0 h1]
      unfold out6_C_5 sout6_C_0 sout6_C_1; (try dsimp only)
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _ _ _ _ _ _ _ _ _ _)
              · unfold owns; iexists _; isplitr
                swap; · iexact HS1
                ipureintro; exact View.read_writes_of_cover _ _ _ _ _ (scover6_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 c _ _ _ _ _ _ _ _ _ _ _ _ _ _ _ _ _ _ _ _ _ _ _ _ _ _)
    · rw [Dat.leavesExact_idle (dat6 V c) 5 t (idleAt6_5_B t (fun h => h0 ((hcond6_0 t).mp h)) (fun h => h1 ((hcond6_1 t).mp h))) (noFlush6_5_B t (fun h => h0 ((hcond6_0 t).mp h)) (fun h => h1 ((hcond6_1 t).mp h)))]
      rw [outsAt6_B V c t h0 h1]
      unfold sout6_B_0 sout6_B_1; (try dsimp only)
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _ _ _ _ _ _ _ _ _ _)
              · unfold owns; iexists _; isplitr
                swap; · iexact HS1
                ipureintro; exact View.read_writes_of_cover _ _ _ _ _ (scover6_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation6 (c : Dev nD) : BodyObligation (dat6 (F := F) V c) (defs₀ (F := F)) Variants.none () Set.univ := fun t => by
  rw [bigSep_W6, bigSep_W6]
  exact sound_body6 V c t

theorem q6 (c : Dev nD) (w : Fin cfg6.W) : (dat6 V c).q w = fullShare := by dsimp only [dat6]
theorem owed6 (c : Dev nD) (t : Fin (cfg6.N + 1)) : (dat6 V c).owed t = 0 := by dsimp only [dat6]
theorem recorded6 (c : Dev nD) (t : Fin (cfg6.N + 1)) : (dat6 V c).recorded t = Set.univ := by dsimp only [dat6]

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout6 (c : Dev nD) : (dat6 V c).Φ (Fin.last cfg6.N) ⊢ (Pipeline.ΦA spec6 c : sProp 𝕄) :=
  Phi_out6 V c _ (by rw [Fin.val_last]; have : cfg6.N = 10 := N_6; omega)

theorem hz2 : (![0, 0] : Fin 2 → ℕ) = fun _ => 0 := by
  funext a; fin_cases a <;> rfl

section

variable (c : Dev nD) (i : grid6.Coords) (arg1 : Memref sig .tc .vmem S10000x64 .f32) (harg1 : arg1.IsWhole) (arg2 : Memref sig .tc .vmem S10000x1 .i32) (harg2 : arg2.IsWhole) (arg3 : Memref sig .tc .vmem S128x64 .f32) (harg3 : arg3.IsWhole) (arg4 : Memref sig .tc .vmem S128x5 .f32) (harg4 : arg4.IsWhole) (arg5 : Memref sig .tc .vmem S1x5 .f32) (harg5 : arg5.IsWhole) (arg6 : Memref sig .tc .vmem S128x5 .f32) (harg6 : arg6.IsWhole) (arg7 : Memref sig .tc .vmem S128x64 .f32) (harg7 : arg7.IsWhole) (arg8 : Memref sig .tc .vmem S128x1 .f32) (harg8 : arg8.IsWhole)

theorem sout6_A_0_eq (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) :
    sout6_A_0 c i arg1 harg1 arg2 harg2 arg3 harg3 arg4 harg4 arg5 harg5 arg6 harg6 arg7 harg7 arg8 harg8 hc0 hc1 x0 x1 x2 x3 x4 = k6_pay4 x0 x1 k6_pay1 := by
  unfold sout6_A_0; rw [View.read_writes_eq_canon _ _ _ (scover6_A_0 c i arg1 harg1 arg2 harg2 arg3 harg3 arg4 harg4 arg5 harg5 arg6 harg6 arg7 harg7 arg8 harg8 hc0 hc1 x0 x1 x2 x3 x4)]; unfold kernelRun6_A
  dsimp only; sl_unfold_words
  rw [View.canon_cons_unit_zero (S := S128x64) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_A_1_eq (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) :
    sout6_A_1 c i arg1 harg1 arg2 harg2 arg3 harg3 arg4 harg4 arg5 harg5 arg6 harg6 arg7 harg7 arg8 harg8 hc0 hc1 x0 x1 x2 x3 x4 = k6_pay5 x1 k6_pay2 := by
  unfold sout6_A_1; rw [View.read_writes_eq_canon _ _ _ (scover6_A_1 c i arg1 harg1 arg2 harg2 arg3 harg3 arg4 harg4 arg5 harg5 arg6 harg6 arg7 harg7 arg8 harg8 hc0 hc1 x0 x1 x2 x3 x4)]; unfold kernelRun6_A
  dsimp only; sl_unfold_words
  rw [View.canon_cons_unit_zero (S := S128x1) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_B_0_eq (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_B_0 c i arg1 harg1 arg2 harg2 arg3 harg3 arg4 harg4 arg5 harg5 arg6 harg6 arg7 harg7 arg8 harg8 hc0 hc1 x0 x1 x2 x3 x4 xs0 xs1 = k6_pay4 x0 x1 xs0 := by
  unfold sout6_B_0; rw [View.read_writes_eq_canon _ _ _ (scover6_B_0 c i arg1 harg1 arg2 harg2 arg3 harg3 arg4 harg4 arg5 harg5 arg6 harg6 arg7 harg7 arg8 harg8 hc0 hc1 x0 x1 x2 x3 x4 xs0 xs1)]; unfold kernelRun6_B
  dsimp only; sl_unfold_words
  rw [View.canon_unit_zero (S := S128x64) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_B_1_eq (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_B_1 c i arg1 harg1 arg2 harg2 arg3 harg3 arg4 harg4 arg5 harg5 arg6 harg6 arg7 harg7 arg8 harg8 hc0 hc1 x0 x1 x2 x3 x4 xs0 xs1 = k6_pay5 x1 xs1 := by
  unfold sout6_B_1; rw [View.read_writes_eq_canon _ _ _ (scover6_B_1 c i arg1 harg1 arg2 harg2 arg3 harg3 arg4 harg4 arg5 harg5 arg6 harg6 arg7 harg7 arg8 harg8 hc0 hc1 x0 x1 x2 x3 x4 xs0 xs1)]; unfold kernelRun6_B
  dsimp only; sl_unfold_words
  rw [View.canon_unit_zero (S := S128x1) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_C_0_eq (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_C_0 c i arg1 harg1 arg2 harg2 arg3 harg3 arg4 harg4 arg5 harg5 arg6 harg6 arg7 harg7 arg8 harg8 hc0 hc1 x0 x1 x2 x3 x4 xs0 xs1 = k6_pay4 x0 x1 xs0 := by
  unfold sout6_C_0; rw [View.read_writes_eq_canon _ _ _ (scover6_C_0 c i arg1 harg1 arg2 harg2 arg3 harg3 arg4 harg4 arg5 harg5 arg6 harg6 arg7 harg7 arg8 harg8 hc0 hc1 x0 x1 x2 x3 x4 xs0 xs1)]; unfold kernelRun6_C
  dsimp only; sl_unfold_words
  rw [View.canon_unit_zero (S := S128x64) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_C_1_eq (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_C_1 c i arg1 harg1 arg2 harg2 arg3 harg3 arg4 harg4 arg5 harg5 arg6 harg6 arg7 harg7 arg8 harg8 hc0 hc1 x0 x1 x2 x3 x4 xs0 xs1 = k6_pay5 x1 xs1 := by
  unfold sout6_C_1; rw [View.read_writes_eq_canon _ _ _ (scover6_C_1 c i arg1 harg1 arg2 harg2 arg3 harg3 arg4 harg4 arg5 harg5 arg6 harg6 arg7 harg7 arg8 harg8 hc0 hc1 x0 x1 x2 x3 x4 xs0 xs1)]; unfold kernelRun6_C
  dsimp only; sl_unfold_words
  rw [View.canon_unit_zero (S := S128x1) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem out6_C_5_eq (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    out6_C_5 c i arg1 harg1 arg2 harg2 arg3 harg3 arg4 harg4 arg5 harg5 arg6 harg6 arg7 harg7 arg8 harg8 hc0 hc1 x0 x1 x2 x3 x4 xs0 xs1 = k6_pay6 (k6_pay4 x0 x1 xs0) (k6_pay5 x1 xs1) x2 x3 x4 := by
  unfold out6_C_5; rw [View.read_writes_eq_canon _ _ _ (cover6_C_5 c i arg1 harg1 arg2 harg2 arg3 harg3 arg4 harg4 arg5 harg5 arg6 harg6 arg7 harg7 arg8 harg8 hc0 hc1 x0 x1 x2 x3 x4 xs0 xs1)]; unfold kernelRun6_C
  dsimp only; sl_unfold_words
  rw [View.canon_unit_zero (S := S128x5) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

end

def sum6 (c : Dev nD) (n : ℕ) (h : n < cfg6.N) : Vec F S128x64 .f32 := (outsAt6 V c n h).2.1

def cnt6 (c : Dev nD) (n : ℕ) (h : n < cfg6.N) : Vec F S128x1 .f32 := (outsAt6 V c n h).2.2

theorem sum6_A (c : Dev nD) (t : Fin cfg6.N) (h0 : t.val % 10 = 0) (h1 : ¬t.val % 10 = 9) :
    (outsAt6 V c t.val t.isLt).2.1 = k6_pay4 (iblk6 V c 0 t) (iblk6 V c 1 t) k6_pay1 := by
  rw [outsAt6_A V c t h0 h1]; dsimp only
  exact sout6_A_0_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)
theorem cnt6_A (c : Dev nD) (t : Fin cfg6.N) (h0 : t.val % 10 = 0) (h1 : ¬t.val % 10 = 9) :
    (outsAt6 V c t.val t.isLt).2.2 = k6_pay5 (iblk6 V c 1 t) k6_pay2 := by
  rw [outsAt6_A V c t h0 h1]; dsimp only
  exact sout6_A_1_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)

theorem sum6_BC (c : Dev nD) (t : Fin cfg6.N) (h0 : ¬t.val % 10 = 0) :
    (outsAt6 V c t.val t.isLt).2.1 = k6_pay4 (iblk6 V c 0 t) (iblk6 V c 1 t) (outsAt6 V c (t.val - 1) (Nat.lt_of_le_of_lt (Nat.sub_le _ _) t.isLt)).2.1 := by
  by_cases h1 : t.val % 10 = 9
  · rw [outsAt6_C V c t h0 h1]; dsimp only
    exact sout6_C_0_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2
  · rw [outsAt6_B V c t h0 h1]; dsimp only
    exact sout6_B_0_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2
theorem cnt6_BC (c : Dev nD) (t : Fin cfg6.N) (h0 : ¬t.val % 10 = 0) :
    (outsAt6 V c t.val t.isLt).2.2 = k6_pay5 (iblk6 V c 1 t) (outsAt6 V c (t.val - 1) (Nat.lt_of_le_of_lt (Nat.sub_le _ _) t.isLt)).2.2 := by
  by_cases h1 : t.val % 10 = 9
  · rw [outsAt6_C V c t h0 h1]; dsimp only
    exact sout6_C_1_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2
  · rw [outsAt6_B V c t h0 h1]; dsimp only
    exact sout6_B_1_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2

theorem sum6_zero (c : Dev nD) (h : 0 < cfg6.N) :
    sum6 V c 0 h = k6_pay4 (iblk6 V c 0 ⟨0, h⟩) (iblk6 V c 1 ⟨0, h⟩) k6_pay1 :=
  sum6_A V c ⟨0, h⟩ (Nat.zero_mod _) (by (try dsimp only); omega)
theorem sum6_succ (c : Dev nD) (n : ℕ) (h : n + 1 < cfg6.N) :
    sum6 V c (n + 1) h = k6_pay4 (iblk6 V c 0 ⟨n + 1, h⟩) (iblk6 V c 1 ⟨n + 1, h⟩) (sum6 V c n (Nat.lt_of_succ_lt h)) :=
  sum6_BC V c ⟨n + 1, h⟩ (by have hN : n + 1 < 10 := lt_of_lt_of_eq h (show cfg6.N = 10 from N_6); (try dsimp only); omega)
theorem cnt6_zero (c : Dev nD) (h : 0 < cfg6.N) :
    cnt6 V c 0 h = k6_pay5 (iblk6 V c 1 ⟨0, h⟩) k6_pay2 :=
  cnt6_A V c ⟨0, h⟩ (Nat.zero_mod _) (by (try dsimp only); omega)
theorem cnt6_succ (c : Dev nD) (n : ℕ) (h : n + 1 < cfg6.N) :
    cnt6 V c (n + 1) h = k6_pay5 (iblk6 V c 1 ⟨n + 1, h⟩) (cnt6 V c n (Nat.lt_of_succ_lt h)) :=
  cnt6_BC V c ⟨n + 1, h⟩ (by have hN : n + 1 < 10 := lt_of_lt_of_eq h (show cfg6.N = 10 from N_6); (try dsimp only); omega)

theorem out6_last (c : Dev nD) :
    (dat6 V c).after 5 t6_9 = k6_pay6 (sum6 V c 9 t6_9.isLt) (cnt6 V c 9 t6_9.isLt) (iblk6 V c 2 t6_9) (iblk6 V c 3 t6_9) (iblk6 V c 4 t6_9) := by
  have h0 : ¬t6_9.val % 10 = 0 := by decide
  have h1 : t6_9.val % 10 = 9 := by decide
  have e1 : sum6 V c 9 t6_9.isLt = k6_pay4 (iblk6 V c 0 t6_9) (iblk6 V c 1 t6_9) (outsAt6 V c (t6_9.val - 1) (Nat.lt_of_le_of_lt (Nat.sub_le _ _) t6_9.isLt)).2.1 := sum6_BC V c t6_9 h0
  have e2 : cnt6 V c 9 t6_9.isLt = k6_pay5 (iblk6 V c 1 t6_9) (outsAt6 V c (t6_9.val - 1) (Nat.lt_of_le_of_lt (Nat.sub_le _ _) t6_9.isLt)).2.2 := cnt6_BC V c t6_9 h0
  rw [e1, e2, after6_5, outsAt6_C V c t6_9 h0 h1]; dsimp only
  exact out6_C_5_eq c (grid6.coords t6_9) (ms6_0 t6_9) (hs6_0 t6_9) (ms6_1 t6_9) (hs6_1 t6_9) (ms6_2 t6_9) (hs6_2 t6_9) (ms6_3 t6_9) (hs6_3 t6_9) (ms6_4 t6_9) (hs6_4 t6_9) (ms6_5 t6_9) (hs6_5 t6_9) scM6_0 (Memref.isWhole_whole _) scM6_1 (Memref.isWhole_whole _) (fun h => h0 ((hcond6_0 t6_9).mp h)) ((hcond6_1 t6_9).mpr h1) (iblk6 V c 0 t6_9) (iblk6 V c 1 t6_9) (iblk6 V c 2 t6_9) (iblk6 V c 3 t6_9) (iblk6 V c 4 t6_9) (outsAt6 V c (t6_9.val - 1) (Nat.lt_of_le_of_lt (Nat.sub_le _ _) t6_9.isLt)).2.1 (outsAt6 V c (t6_9.val - 1) (Nat.lt_of_le_of_lt (Nat.sub_le _ _) t6_9.isLt)).2.2

end Cert.Kernel.Frm

end
-- ==== Proof.K.Run.lean ====
import proofs.«430252_j4990751998361_2_alg».proof.Proof.Gen.Kernel.Launch
import proofs.«430252_j4990751998361_2_alg».proof.Proof.Gen.Kernel.Skeleton
import proofs.«430252_j4990751998361_2_alg».proof.Proof.Gen.Kernel.Points
import proofs.«430252_j4990751998361_2_alg».proof.Proof.Gen.Kernel.Regions
import proofs.«430252_j4990751998361_2_alg».proof.Proof.K.A0
import proofs.«430252_j4990751998361_2_alg».proof.Proof.K.A1
import proofs.«430252_j4990751998361_2_alg».proof.Proof.K.A2
import proofs.«430252_j4990751998361_2_alg».proof.Proof.K.A3
import proofs.«430252_j4990751998361_2_alg».proof.Proof.K.A4
import proofs.«430252_j4990751998361_2_alg».proof.Proof.K.A5
import proofs.«430252_j4990751998361_2_alg».proof.Proof.K.R6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit

variable {cfg : Pipeline.Cfg sig Λ₀} {c : Dev nD} (W : Valuation τ sig (Elt F)) (d : Dat τ (Elt F) Unit ℕ (UR sig nD τ) ℕ cfg c)

-- A region's exit contents: its arrays at their final contents, every other buffer as entered.
def exitW : Valuation τ sig (Elt F) := Pipeline.withArrays cfg.spec c W fun w => d.arrAt w cfg.N

theorem exitW_arr (hinj : Function.Injective (Pipeline.arrRef cfg.spec)) (w : Fin cfg.W) :
    exitW W d (Proc.devRef .tc (Pipeline.arrRef cfg.spec w)) = d.arrAt w cfg.N :=
  Pipeline.withArrays_arr cfg.spec hinj c _ _ w

theorem exitW_of_ne (b : Ref sig .tc) (hb : ∀ w, Pipeline.arrRef cfg.spec w ≠ b) :
    exitW W d (Proc.devRef .tc b) = W (Proc.devRef .tc b) :=
  Pipeline.withArrays_of_ne cfg.spec c _ _ b hb

theorem exitW_keep (hinj : Function.Injective (Pipeline.arrRef cfg.spec))
    (hA : ∀ w, d.A w = W (Proc.devRef .tc (Pipeline.arrRef cfg.spec w))) (outs : List (Ref sig .tc))
    (houts : ∀ w, (cfg.win w).isOut = true → Pipeline.arrRef cfg.spec w ∈ outs) (b : Ref sig .tc) (hb : b ∉ outs) :
    exitW W d (Proc.devRef .tc b) = W (Proc.devRef .tc b) := by
  by_cases h : ∃ w, Pipeline.arrRef cfg.spec w = b
  · obtain ⟨w, rfl⟩ := h
    have hin : (cfg.win w).isOut = false := by
      cases hw : (cfg.win w).isOut
      · rfl
      · exact absurd (houts w hw) hb
    rw [exitW_arr W d hinj, d.arrAt_in w hin, hA]
  · exact exitW_of_ne W d b fun w e => h ⟨w, e⟩

end Exit

variable (m : (ℓ : Loc nD τ sig) → Buf (Elt F) ℓ) (ρ : Dev nD → PrngReg)

-- The contents of a core's buffers at each boundary of @main: a fold from the launch memory.
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) := exitW (W3 m ρ c) (dat0 (V3 m ρ) c)
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) := exitW (W5 m ρ c) (dat1 (V5 m ρ) c)
abbrev V6 : (c : Dev nD) → (b : Ref sig .tc) → Buf (Elt F) ((c : Thread nD τ).loc b) := fun c b => W6 m ρ c b
def W7 (c : Dev nD) : Valuation τ sig (Elt F) := exitW (W6 m ρ c) (dat2 (V6 m ρ) c)
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) := exitW (W8 m ρ c) (dat3 (V8 m ρ) c)
abbrev V9 : (c : Dev nD) → (b : Ref sig .tc) → Buf (Elt F) ((c : Thread nD τ).loc b) := fun c b => W9 m ρ c b
def W10 (c : Dev nD) : Valuation τ sig (Elt F) := exitW (W9 m ρ c) (dat4 (V9 m ρ) c)
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) := exitW (W11 m ρ c) (dat5 (V11 m ρ) c)
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
def W14 (c : Dev nD) : Valuation τ sig (Elt F) := exitW (W13 m ρ c) (dat6 (V13 m ρ) c)

def Wn : Fin 15 → Dev nD → Valuation τ sig (Elt F)
  | ⟨0, _⟩ => W0 m ρ | ⟨1, _⟩ => W1 m ρ | ⟨2, _⟩ => W2 m ρ | ⟨3, _⟩ => W3 m ρ | ⟨4, _⟩ => W4 m ρ
  | ⟨5, _⟩ => W5 m ρ | ⟨6, _⟩ => W6 m ρ | ⟨7, _⟩ => W7 m ρ | ⟨8, _⟩ => W8 m ρ | ⟨9, _⟩ => W9 m ρ
  | ⟨10, _⟩ => W10 m ρ | ⟨11, _⟩ => W11 m ρ | ⟨12, _⟩ => W12 m ρ | ⟨13, _⟩ => W13 m ρ | ⟨14, _⟩ => W14 m ρ

-- What item k of @main may write: a host stretch's results, a region's output array.
noncomputable def wr : Fin 14 → List (Ref sig .tc)
  | ⟨0, _⟩ => hostOps0_W | ⟨1, _⟩ => hostOps0_1_W | ⟨2, _⟩ => hostOps0_2_W | ⟨3, _⟩ => [main_v30]
  | ⟨4, _⟩ => hostOps1_W | ⟨5, _⟩ => [main_v45] | ⟨6, _⟩ => [main_v46] | ⟨7, _⟩ => hostOps3_W
  | ⟨8, _⟩ => [main_v61] | ⟨9, _⟩ => [main_v62] | ⟨10, _⟩ => hostOps5_W | ⟨11, _⟩ => [main_v77]
  | ⟨12, _⟩ => hostOps6_W | ⟨13, _⟩ => [main_v80]

theorem step_keep (k : Fin 14) (c : Dev nD) (b : Ref sig .tc) :
    b ∉ wr k → Wn m ρ k.succ c (Proc.devRef .tc b) = Wn m ρ k.castSucc c (Proc.devRef .tc b) :=
  match k with
  | ⟨0, _⟩ => (StableHlo.after_of_writes_sub hostOps0 _ hostOps0_writes :
      b ∉ hostOps0_W → W1 m ρ c (Proc.devRef .tc b) = W0 m ρ c (Proc.devRef .tc b))
  | ⟨1, _⟩ => (StableHlo.after_of_writes_sub hostOps0_1 _ hostOps0_1_writes :
      b ∉ hostOps0_1_W → W2 m ρ c (Proc.devRef .tc b) = W1 m ρ c (Proc.devRef .tc b))
  | ⟨2, _⟩ => (StableHlo.after_of_writes_sub hostOps0_2 _ hostOps0_2_writes :
      b ∉ hostOps0_2_W → W3 m ρ c (Proc.devRef .tc b) = W2 m ρ c (Proc.devRef .tc b))
  | ⟨3, _⟩ => (exitW_keep _ _ launch0.win.arr_inj (A_eq0 (V3 m ρ) c) [main_v30] (by decide) b :
      b ∉ [main_v30] → W4 m ρ c (Proc.devRef .tc b) = W3 m ρ c (Proc.devRef .tc b))
  | ⟨4, _⟩ => (StableHlo.after_of_writes_sub hostOps1 _ hostOps1_writes :
      b ∉ hostOps1_W → W5 m ρ c (Proc.devRef .tc b) = W4 m ρ c (Proc.devRef .tc b))
  | ⟨5, _⟩ => (exitW_keep _ _ launch1.win.arr_inj (A_eq1 (V5 m ρ) c) [main_v45] (by decide) b :
      b ∉ [main_v45] → W6 m ρ c (Proc.devRef .tc b) = W5 m ρ c (Proc.devRef .tc b))
  | ⟨6, _⟩ => (exitW_keep _ _ launch2.win.arr_inj (A_eq2 (V6 m ρ) c) [main_v46] (by decide) b :
      b ∉ [main_v46] → W7 m ρ c (Proc.devRef .tc b) = W6 m ρ c (Proc.devRef .tc b))
  | ⟨7, _⟩ => (StableHlo.after_of_writes_sub hostOps3 _ hostOps3_writes :
      b ∉ hostOps3_W → W8 m ρ c (Proc.devRef .tc b) = W7 m ρ c (Proc.devRef .tc b))
  | ⟨8, _⟩ => (exitW_keep _ _ launch3.win.arr_inj (A_eq3 (V8 m ρ) c) [main_v61] (by decide) b :
      b ∉ [main_v61] → W9 m ρ c (Proc.devRef .tc b) = W8 m ρ c (Proc.devRef .tc b))
  | ⟨9, _⟩ => (exitW_keep _ _ launch4.win.arr_inj (A_eq4 (V9 m ρ) c) [main_v62] (by decide) b :
      b ∉ [main_v62] → W10 m ρ c (Proc.devRef .tc b) = W9 m ρ c (Proc.devRef .tc b))
  | ⟨10, _⟩ => (StableHlo.after_of_writes_sub hostOps5 _ hostOps5_writes :
      b ∉ hostOps5_W → W11 m ρ c (Proc.devRef .tc b) = W10 m ρ c (Proc.devRef .tc b))
  | ⟨11, _⟩ => (exitW_keep _ _ launch5.win.arr_inj (A_eq5 (V11 m ρ) c) [main_v77] (by decide) b :
      b ∉ [main_v77] → W12 m ρ c (Proc.devRef .tc b) = W11 m ρ c (Proc.devRef .tc b))
  | ⟨12, _⟩ => (StableHlo.after_of_writes_sub hostOps6 _ hostOps6_writes :
      b ∉ hostOps6_W → W13 m ρ c (Proc.devRef .tc b) = W12 m ρ c (Proc.devRef .tc b))
  | ⟨13, _⟩ => (exitW_keep _ _ launch6.win.arr_inj (A_eq6 (V13 m ρ) c) [main_v80] (by decide) b :
      b ∉ [main_v80] → W14 m ρ c (Proc.devRef .tc b) = W13 m ρ c (Proc.devRef .tc b))

-- By induction on the number of items crossed.
theorem keep (j : ℕ) (c : Dev nD) (b : Ref sig .tc) : ∀ (n : ℕ) (hn : j + n < 15),
    (∀ i : Fin 14, j ≤ i.val → i.val < j + n → b ∉ wr i) →
    Wn m ρ ⟨j + n, hn⟩ c (Proc.devRef .tc b) = Wn m ρ ⟨j, by omega⟩ c (Proc.devRef .tc b)
  | 0, _, _ => rfl
  | n + 1, hn, hb =>
    (step_keep m ρ ⟨j + n, by omega⟩ c b (hb _ (Nat.le_add_right _ _) (Nat.lt_succ_self _))).trans
      (keep j c b n (by omega) fun i h1 h2 => hb i h1 (Nat.lt_succ_of_lt h2))

def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

set_option backward.isDefEq.respectTransparency.types false in
-- The seven regions differ only in their proof data: one segment record serves them all.
def regOf (p : Fin 7) (lf : Pipeline.LaunchFacts (nD := nD) (τ := τ) cfgs p) (Win Wout : Dev nD → Valuation τ sig (Elt F))
    (hW : ∀ c, Wout c = exitW (Win c) (pdats m ρ p c))
    (hbody : ∀ c, BodyObligation (pdats m ρ p c) (defs₀ (F := F)) 𝒱₀ () Set.univ)
    (hq : ∀ c w, (pdats m ρ p c).q w = fullShare)
    (hA : ∀ c w, (pdats m ρ p c).A w = Win c (Proc.devRef .tc (Pipeline.arrRef (cfgs p).spec w)))
    (howed : ∀ c t, (pdats m ρ p c).owed t = 0) (hrec : ∀ c, (pdats m ρ p c).recorded 0 = Set.univ)
    (hΦin : ∀ c, (Pipeline.ΦA (cfgs p).spec c : sProp 𝕄) ⊢ (pdats m ρ p c).Φ 0)
    (hΦout : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b : Ref sig .tc => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    refine BIBase.Entails.trans (hΦout c) ?_
    rw [Pipeline.ownSems0_none]; unfold Pipeline.ΦA
    iintro ⟨Hr, Hp⟩
    isplitl [Hp]; · iexact Hp
    isplitr; · iempintro
    iexact Hr
  hexit c := by
    rw [hW c]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b : Ref sig .tc => Win c b) (fun b : Ref sig .tc => exitW (Win c) (pdats m ρ p c) b) ((pdats m ρ p c).arrAt · _)
      (fun w => (exitW_arr (Win c) (pdats m ρ p c) lf.win.arr_inj w).symm)
      (fun b hb => exitW_of_ne (Win c) (pdats m ρ p c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
abbrev reg0 := regOf m ρ 0 launch0 (W3 m ρ) (W4 m ρ) (fun _ => rfl) (body_obligation0 (V3 m ρ)) (fun _ _ => rfl) (A_eq0 (V3 m ρ)) (fun _ _ => rfl) (fun _ => rfl) (fun _ => .rfl) (fun _ => .rfl)
set_option backward.isDefEq.respectTransparency.types false in
abbrev reg1 := regOf m ρ 1 launch1 (W5 m ρ) (W6 m ρ) (fun _ => rfl) (body_obligation1 (V5 m ρ)) (fun _ _ => rfl) (A_eq1 (V5 m ρ)) (fun _ _ => rfl) (fun _ => rfl) (fun _ => .rfl) (fun _ => .rfl)
set_option backward.isDefEq.respectTransparency.types false in
abbrev reg2 := regOf m ρ 2 launch2 (W6 m ρ) (W7 m ρ) (fun _ => rfl) (body_obligation2 (V6 m ρ)) (fun _ _ => rfl) (A_eq2 (V6 m ρ)) (fun _ _ => rfl) (fun _ => rfl) (fun _ => .rfl) (fun _ => .rfl)
set_option backward.isDefEq.respectTransparency.types false in
abbrev reg3 := regOf m ρ 3 launch3 (W8 m ρ) (W9 m ρ) (fun _ => rfl) (body_obligation3 (V8 m ρ)) (fun _ _ => rfl) (A_eq3 (V8 m ρ)) (fun _ _ => rfl) (fun _ => rfl) (fun _ => .rfl) (fun _ => .rfl)
set_option backward.isDefEq.respectTransparency.types false in
abbrev reg4 := regOf m ρ 4 launch4 (W9 m ρ) (W10 m ρ) (fun _ => rfl) (body_obligation4 (V9 m ρ)) (fun _ _ => rfl) (A_eq4 (V9 m ρ)) (fun _ _ => rfl) (fun _ => rfl) (fun _ => .rfl) (fun _ => .rfl)
set_option backward.isDefEq.respectTransparency.types false in
abbrev reg5 := regOf m ρ 5 launch5 (W11 m ρ) (W12 m ρ) (fun _ => rfl) (body_obligation5 (V11 m ρ)) (fun _ _ => rfl) (A_eq5 (V11 m ρ)) (fun _ _ => rfl) (fun _ => rfl) (fun _ => .rfl) (fun _ => .rfl)
set_option backward.isDefEq.respectTransparency.types false in
abbrev reg6 := regOf m ρ 6 launch6 (W13 m ρ) (W14 m ρ) (fun _ => rfl) (body_obligation6 (V13 m ρ)) (q6 (V13 m ρ)) (A_eq6 (V13 m ρ)) (owed6 (V13 m ρ)) (fun c => recorded6 (V13 m ρ) c 0) (hin6 (V13 m ρ)) (hout6 (V13 m ρ))

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

-- No item of @main writes an argument: each ends as launched.
theorem arg_kept (c : Dev nD) (b : Ref sig .tc) (hb : ∀ i : Fin 14, b ∉ wr i) :
    W14 m ρ c (Proc.devRef .tc b) = m ((c : Thread nD τ).loc b) :=
  keep m ρ 0 c b 14 (by decide) fun i _ _ => hb i

theorem run : θ_run defs (onTc (τ := τ) (main (F := F))) ⟨m, fun _ => 0, ρ⟩ (fun r => ∀ c : Dev nD,
      r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k (b : Ref sig .tc) (hu : ¬ (Proc.devRef .tc b : DevRef τ sig).isScoped) (hb : ∀ i : Fin 14, b ∉ wr i) :
        r.2.mem ((c.tc : Thread nD τ).loc b) = m ((c.tc : Thread nD τ).loc b) :=
      (h c _ (mem_uc b hu)).trans (arg_kept m ρ c b hb)
    ⟨h c _ (mem_uc main_v80 (by decide)),
     k main_arg0 (by decide) (by decide), k main_arg1 (by decide) (by decide), k main_arg2 (by decide) (by decide),
     k main_arg3 (by decide) (by decide), k main_arg4 (by decide) (by decide), k main_arg5 (by decide) (by decide),
     k main_arg6 (by decide) (by decide), k main_arg7 (by decide) (by decide), k main_arg8 (by decide) (by decide),
     k main_arg9 (by decide) (by decide), k main_arg10 (by decide) (by decide), k main_arg11 (by decide) (by decide)⟩)
    (run_main m ρ)

end Cert.Kernel.Frm

end
-- ==== Proof.KI.A0.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x2 := Rect.unit (s := S10000x2) ![0, 0] S10000x2.size inb_S10000x2_S10000x2_0_0
abbrev r0_1 : Rect S2x64 := Rect.unit (s := S2x64) ![0, 0] S2x64.size inb_S2x64_S2x64_0_0
abbrev r0_2 : Rect S10000x64 := Rect.unit (s := S10000x64) ![0, 0] S10000x64.size inb_S10000x64_S10000x64_0_0

def out0_2 (x0 : Vec F S10000x2 .f32) (x1 : Vec F S2x64 .f32) : Vec F S10000x64 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in

theorem sound_kernel0 (c : Dev nD) (E : Set ℕ) (i : grid0.Coords) (arg0 : Memref sig .tc .vmem S10000x2 .f32) (harg0 : arg0.IsWhole) (arg1 : Memref sig .tc .vmem S2x64 .f32) (harg1 : arg1.IsWhole) (arg2 : Memref sig .tc .vmem S10000x64 .f32) (harg2 : arg2.IsWhole)
    (x0 : Vec F S10000x2 .f32) (x1 : Vec F S2x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.A1.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S10000x64 := Rect.unit (s := S10000x64) ![0, 0] S10000x64.size inb_S10000x64_S10000x64_0_0

def out1_2 (x0 : Vec F S10000x64 .f32) (x1 : Vec F S1x64 .f32) : Vec F S10000x64 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

set_option maxHeartbeats 1000000 in

theorem sound_kernel1 (c : Dev nD) (E : Set ℕ) (i : grid1.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1_kernel i arg0 harg0 arg1 harg1 arg2 harg2) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.A2.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S10000x64 := Rect.unit (s := S10000x64) ![0, 0] S10000x64.size inb_S10000x64_S10000x64_0_0

def out2_2 (x0 : Vec F S10000x64 .f32) (x1 : Vec F S64x64 .f32) : Vec F S10000x64 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem cover2_2 (p0 : Vec F S10000x64 .f32) (y : S10000x64.Idx) :
    ∃ pc ∈ ([⟨r2_2, p0⟩] : List (View.Piece (Elt F) S10000x64 .f32)), y ∈ pc.1.set :=
  View.cover_of_tiled [⟨r2_2, p0⟩] S10000x64.size (by rfl) y

set_option maxHeartbeats 1000000 in

theorem sound_kernel2 (c : Dev nD) (E : Set ℕ) (i : grid2.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.A3.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S10000x64 := Rect.unit (s := S10000x64) ![0, 0] S10000x64.size inb_S10000x64_S10000x64_0_0

def out3_2 (x0 : Vec F S10000x64 .f32) (x1 : Vec F S1x64 .f32) : Vec F S10000x64 .f32 :=
  View.canon [⟨r3_2, k3_pay1 (View.ld x0 r3_0) (View.ld x1 r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem cover3_2 (p0 : Vec F S10000x64 .f32) (y : S10000x64.Idx) :
    ∃ pc ∈ ([⟨r3_2, p0⟩] : List (View.Piece (Elt F) S10000x64 .f32)), y ∈ pc.1.set :=
  View.cover_of_tiled [⟨r3_2, p0⟩] S10000x64.size (by rfl) y

set_option maxHeartbeats 1000000 in

theorem sound_kernel3 (c : Dev nD) (E : Set ℕ) (i : grid3.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3_kernel i arg0 harg0 arg1 harg1 arg2 harg2) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.A4.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x64 := Rect.unit (s := S10000x64) ![0, 0] S10000x64.size inb_S10000x64_S10000x64_0_0

def out4_2 (x0 : Vec F S10000x64 .f32) (x1 : Vec F S64x64 .f32) : Vec F S10000x64 .f32 :=
  View.canon [⟨r4_2, k4_pay1 (View.ld x0 r4_0) (View.ld x1 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem cover4_2 (p0 : Vec F S10000x64 .f32) (y : S10000x64.Idx) :
    ∃ pc ∈ ([⟨r4_2, p0⟩] : List (View.Piece (Elt F) S10000x64 .f32)), y ∈ pc.1.set :=
  View.cover_of_tiled [⟨r4_2, p0⟩] S10000x64.size (by rfl) y

set_option maxHeartbeats 1000000 in

theorem sound_kernel4 (c : Dev nD) (E : Set ℕ) (i : grid4.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__linear_kernel i arg0 harg0 arg1 harg1 arg2 harg2) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.A5.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S10000x64 := Rect.unit (s := S10000x64) ![0, 0] S10000x64.size inb_S10000x64_S10000x64_0_0

def out5_2 (x0 : Vec F S10000x64 .f32) (x1 : Vec F S1x64 .f32) : Vec F S10000x64 .f32 :=
  View.canon [⟨r5_2, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem cover5_2 (p0 : Vec F S10000x64 .f32) (y : S10000x64.Idx) :
    ∃ pc ∈ ([⟨r5_2, p0⟩] : List (View.Piece (Elt F) S10000x64 .f32)), y ∈ pc.1.set :=
  View.cover_of_tiled [⟨r5_2, p0⟩] S10000x64.size (by rfl) y

set_option maxHeartbeats 1000000 in

theorem sound_kernel5 (c : Dev nD) (E : Set ℕ) (i : grid5.Coords) (arg0 : Memref sig .tc .vmem S10000x64 .f32) (harg0 : arg0.IsWhole) (arg1 : Memref sig .tc .vmem S1x64 .f32) (harg1 : arg1.IsWhole) (arg2 : Memref sig .tc .vmem S10000x64 .f32) (harg2 : arg2.IsWhole)
    (x0 : Vec F S10000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5_kernel i arg0 harg0 arg1 harg1 arg2 harg2) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.R6Runs.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 10 = 0 :=
  (by decide +kernel : ∀ t : Fin grid6.N, cond6_0 (grid6.coords t) ↔ t.val % 10 = 0)

abbrev cond6_1 (i : grid6.Coords) : Prop := k6_cond2 i = 1#1

theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel

theorem idleAt6_5_A : ∀ t : Fin cfg6.N, cond6_0 (grid6.coords t) → ¬cond6_1 (grid6.coords t) → cfg6.idle 5 (grid6.coords t) = true := by decide +kernel
theorem noFlush6_5_A : ∀ t : Fin cfg6.N, cond6_0 (grid6.coords t) → ¬cond6_1 (grid6.coords t) → (cfg6.win 5).flush t = false := by decide +kernel

theorem idleAt6_5_B : ∀ t : Fin cfg6.N, ¬cond6_0 (grid6.coords t) → ¬cond6_1 (grid6.coords t) → cfg6.idle 5 (grid6.coords t) = true := by decide +kernel
theorem noFlush6_5_B : ∀ t : Fin cfg6.N, ¬cond6_0 (grid6.coords t) → ¬cond6_1 (grid6.coords t) → (cfg6.win 5).flush t = false := by decide +kernel

theorem liveAt6_5_C : ∀ t : Fin cfg6.N, ¬cond6_0 (grid6.coords t) → cond6_1 (grid6.coords t) → cfg6.idle 5 (grid6.coords t) = false := by decide +kernel

abbrev VO6_5 : View sig .tc .vmem S128x5 .f32 := (Memref.whole cc6_stg5_0 : Memref sig .tc .vmem S128x5 .f32).view

abbrev ms6_0 (t : Fin cfg6.N) : Memref sig .tc .vmem S10000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S10000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x5 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x5 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S128x5 .f32 := win6_5.stage (cfg6.slots t 5)
abbrev hs6_5 (t : Fin cfg6.N) : (ms6_5 t).IsWhole := hstage6_5 ((cfg6.slots t 5).cast nbuf6_5)

abbrev scM6_0 : Memref sig .tc .vmem S128x64 .f32 := Memref.whole cc6_scratch0
abbrev scM6_1 : Memref sig .tc .vmem S128x1 .f32 := Memref.whole cc6_scratch1
abbrev VS6_0 : View sig .tc .vmem S128x64 .f32 := scM6_0.view
abbrev VS6_1 : View sig .tc .vmem S128x1 .f32 := scM6_1.view

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

set_option maxHeartbeats 1000000 in

section

variable (c : Dev nD) (i : grid6.Coords) (arg1 : Memref sig .tc .vmem S10000x64 .f32) (harg1 : arg1.IsWhole) (arg2 : Memref sig .tc .vmem S10000x1 .i32) (harg2 : arg2.IsWhole) (arg3 : Memref sig .tc .vmem S128x64 .f32) (harg3 : arg3.IsWhole) (arg4 : Memref sig .tc .vmem S128x5 .f32) (harg4 : arg4.IsWhole) (arg5 : Memref sig .tc .vmem S1x5 .f32) (harg5 : arg5.IsWhole) (arg6 : Memref sig .tc .vmem S128x5 .f32) (harg6 : arg6.IsWhole) (arg7 : Memref sig .tc .vmem S128x64 .f32) (harg7 : arg7.IsWhole) (arg8 : Memref sig .tc .vmem S128x1 .f32) (harg8 : arg8.IsWhole)

noncomputable def kernelRun6_A (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) :
    Σ' (L5 : List (View.Piece (Elt F) S128x5 .f32)) (LS0 : List (View.Piece (Elt F) S128x64 .f32)), { LS1 : List (View.Piece (Elt F) S128x1 .f32) //
      ∀ (xi5 : Vec F S128x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7 arg8 harg8) K } := by
  refine ⟨[], ?_, ?_, fun xi5 E K => ?run⟩
  case run =>
    simp only [cc6__pool_classify_kernel_eq_skeleton]; unfold cc6__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun6_B (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    Σ' (L5 : List (View.Piece (Elt F) S128x5 .f32)) (LS0 : List (View.Piece (Elt F) S128x64 .f32)), { LS1 : List (View.Piece (Elt F) S128x1 .f32) //
      ∀ (xi5 : Vec F S128x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7 arg8 harg8) K } := by
  refine ⟨[], ?_, ?_, fun xi5 E K => ?run⟩
  case run =>
    simp only [cc6__pool_classify_kernel_eq_skeleton]; unfold cc6__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in

noncomputable def kernelRun6_C (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    Σ' (L5 : List (View.Piece (Elt F) S128x5 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7 arg8 harg8) K } := by
  refine ⟨?_, ?_, ?_, fun E K => ?run⟩
  case run =>
    simp only [cc6__pool_classify_kernel_eq_skeleton]; unfold cc6__pool_classify_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end

end Cert.KernelIdeal.Frm

end
-- ==== Proof.KI.R6.lean ====
import proofs.«430252_j4990751998361_2_alg».proof.Proof.KI.R6Runs
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid6.Coords) (arg1 : Memref sig .tc .vmem S10000x64 .f32) (harg1 : arg1.IsWhole) (arg2 : Memref sig .tc .vmem S10000x1 .i32) (harg2 : arg2.IsWhole) (arg3 : Memref sig .tc .vmem S128x64 .f32) (harg3 : arg3.IsWhole) (arg4 : Memref sig .tc .vmem S128x5 .f32) (harg4 : arg4.IsWhole) (arg5 : Memref sig .tc .vmem S1x5 .f32) (harg5 : arg5.IsWhole) (arg6 : Memref sig .tc .vmem S128x5 .f32) (harg6 : arg6.IsWhole) (arg7 : Memref sig .tc .vmem S128x64 .f32) (harg7 : arg7.IsWhole) (arg8 : Memref sig .tc .vmem S128x1 .f32) (harg8 : arg8.IsWhole)

def out6_A_5 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) : Vec F S128x5 .f32 :=
  VO6_5.read (Elt F) (VO6_5.writes (Elt F) VO6_5.junk (kernelRun6_A c i arg1 harg1 arg2 harg2 arg3 harg3 arg4 harg4 arg5 harg5 arg6 harg6 arg7 harg7 arg8 harg8 hc0 hc1 x0 x1 x2 x3 x4).1)

theorem scover6_A_0 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) (y : S128x64.Idx) :
    ∃ pc ∈ (kernelRun6_A c i arg1 harg1 arg2 harg2 arg3 harg3 arg4 harg4 arg5 harg5 arg6 harg6 arg7 harg7 arg8 harg8 hc0 hc1 x0 x1 x2 x3 x4).2.1, y ∈ pc.1.set :=
  View.cover_of_tiledL (kernelRun6_A c i arg1 harg1 arg2 harg2 arg3 harg3 arg4 harg4 arg5 harg5 arg6 harg6 arg7 harg7 arg8 harg8 hc0 hc1 x0 x1 x2 x3 x4).2.1 S128x64.size (by sl_kernel_rfl) y

def sout6_A_0 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) : Vec F S128x64 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2 x3 x4).2.1)

theorem scover6_A_1 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) (y : S128x1.Idx) :
    ∃ pc ∈ (kernelRun6_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun6_A c i arg1 harg1 arg2 harg2 arg3 harg3 arg4 harg4 arg5 harg5 arg6 harg6 arg7 harg7 arg8 harg8 hc0 hc1 x0 x1 x2 x3 x4).2.2.1 S128x1.size (by sl_kernel_rfl) y

def sout6_A_1 (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) : Vec F S128x1 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2 x3 x4).2.2.1)

def out6_B_5 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x5 .f32 :=
  VO6_5.read (Elt F) (VO6_5.writes (Elt F) VO6_5.junk (kernelRun6_B c i arg1 harg1 arg2 harg2 arg3 harg3 arg4 harg4 arg5 harg5 arg6 harg6 arg7 harg7 arg8 harg8 hc0 hc1 x0 x1 x2 x3 x4 xs0 xs1).1)

theorem scover6_B_0 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x64.Idx) :
    ∃ pc ∈ (kernelRun6_B c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 x4 xs0 xs1).2.1 S128x64.size (by sl_kernel_rfl) y

def sout6_B_0 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x64 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 x3 x4 xs0 xs1).2.1)

theorem scover6_B_1 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x1.Idx) :
    ∃ pc ∈ (kernelRun6_B c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 x4 xs0 xs1).2.2.1 S128x1.size (by sl_kernel_rfl) y

def sout6_B_1 (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x1 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 x3 x4 xs0 xs1).2.2.1)

theorem cover6_C_5 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x5.Idx) :
    ∃ pc ∈ (kernelRun6_C c i arg1 harg1 arg2 harg2 arg3 harg3 arg4 harg4 arg5 harg5 arg6 harg6 arg7 harg7 arg8 harg8 hc0 hc1 x0 x1 x2 x3 x4 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 xs0 xs1).1 S128x5.size (by sl_kernel_rfl) y

def out6_C_5 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x5 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 x3 x4 xs0 xs1).1)

theorem scover6_C_0 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x64.Idx) :
    ∃ pc ∈ (kernelRun6_C c i arg1 harg1 arg2 harg2 arg3 harg3 arg4 harg4 arg5 harg5 arg6 harg6 arg7 harg7 arg8 harg8 hc0 hc1 x0 x1 x2 x3 x4 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 xs0 xs1).2.1 S128x64.size (by sl_kernel_rfl) y

def sout6_C_0 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x64 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 x3 x4 xs0 xs1).2.1)

theorem scover6_C_1 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) (y : S128x1.Idx) :
    ∃ pc ∈ (kernelRun6_C c i arg1 harg1 arg2 harg2 arg3 harg3 arg4 harg4 arg5 harg5 arg6 harg6 arg7 harg7 arg8 harg8 hc0 hc1 x0 x1 x2 x3 x4 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 x4 xs0 xs1).2.2.1 S128x1.size (by sl_kernel_rfl) y

def sout6_C_1 (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) : Vec F S128x1 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 x3 x4 xs0 xs1).2.2.1)

end

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def outsAt6 (c : Dev nD) : (n : ℕ) → n < cfg6.N → Vec F S128x5 .f32 × Vec F S128x64 .f32 × Vec F S128x1 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)
      else
        (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2.1 (outsAt6 c n (Nat.lt_of_succ_lt hn)).2.2)

theorem outsAt6_A (c : Dev nD) (t : Fin cfg6.N) (h0 : t.val % 10 = 0) (h1 : ¬t.val % 10 = 9) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (by exfalso; have hN : n + 1 < 10 := lt_of_lt_of_eq hn (show cfg6.N = 10 from N_6); (try dsimp only at h0); omega)

theorem outsAt6_B (c : Dev nD) (t : Fin cfg6.N) (h0 : ¬t.val % 10 = 0) (h1 : ¬t.val % 10 = 9) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(iprop(owns (c : Thread nD τ) scM6_0 fullShare (outsAt6 V c n hn).2.1 ∗ owns (c : Thread nD τ) scM6_1 fullShare (outsAt6 V c n hn).2.2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (outsAt6 V c n hn).2.1 ∗ owns (c : Thread nD τ) scM6_1 fullShare (outsAt6 V c n hn).2.2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (outsAt6 V c (n - 1) (by omega)).2.1 ∗ owns (c : Thread nD τ) scM6_1 fullShare (outsAt6 V c (n - 1) (by omega)).2.2) ∗ rest6 c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)

theorem leaves6_0 (c : Dev nD) (t : Fin cfg6.N) :
    (dat6 V c).leavesExact 0 t = owns (c : Thread nD τ) (ms6_0 t) fullShare (iblk6 V c 0 t) := by
  unfold Dat.leavesExact; rw [liveAt6_0 t, after6_0]

theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

theorem leaves6_1 (c : Dev nD) (t : Fin cfg6.N) :
    (dat6 V c).leavesExact 1 t = owns (c : Thread nD τ) (ms6_1 t) fullShare (iblk6 V c 1 t) := by
  unfold Dat.leavesExact; rw [liveAt6_1 t, after6_1]

theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)

theorem leaves6_2 (c : Dev nD) (t : Fin cfg6.N) :
    (dat6 V c).leavesExact 2 t = owns (c : Thread nD τ) (ms6_2 t) fullShare (iblk6 V c 2 t) := by
  unfold Dat.leavesExact; rw [liveAt6_2 t, after6_2]

theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

theorem leaves6_3 (c : Dev nD) (t : Fin cfg6.N) :
    (dat6 V c).leavesExact 3 t = owns (c : Thread nD τ) (ms6_3 t) fullShare (iblk6 V c 3 t) := by
  unfold Dat.leavesExact; rw [liveAt6_3 t, after6_3]

theorem before6_4 (c : Dev nD) (t : Fin cfg6.N) (d) : (dat6 V c).before 4 t d = iblk6 V c 4 t :=
  ((dat6 V c).before_in_eq_fetched 4 rfl (fun _ => rfl) (fun _ _ _ => rfl) (fun t => by rw [after6_4]; unfold Dat.blockOf iblk6; rw [A_eq6]; try rfl) t d).trans
    (by unfold Dat.fetched Dat.blockOf iblk6; rw [A_eq6]; try rfl)

theorem leaves6_4 (c : Dev nD) (t : Fin cfg6.N) :
    (dat6 V c).leavesExact 4 t = owns (c : Thread nD τ) (ms6_4 t) fullShare (iblk6 V c 4 t) := by
  unfold Dat.leavesExact; rw [liveAt6_4 t, after6_4]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [leaves6_0, leaves6_1, leaves6_2, leaves6_3, leaves6_4]
  have hN : t.val < 10 := lt_of_lt_of_eq t.isLt (show cfg6.N = 10 from N_6)
  by_cases h0 : t.val % 10 = 0
  · by_cases h1 : t.val % 10 = 9
    · exfalso; omega
    · rw [Dat.leavesExact_idle (dat6 V c) 5 t (idleAt6_5_A t ((hcond6_0 t).mpr h0) (fun h => h1 ((hcond6_1 t).mp h))) (noFlush6_5_A t ((hcond6_0 t).mpr h0) (fun h => h1 ((hcond6_1 t).mp h)))]
      rw [outsAt6_A V c t h0 h1]
      unfold sout6_A_0 sout6_A_1; (try dsimp only)
      have hz : t.val = 0 := by omega
      · rw [PhiS6_castSucc V c t, PhiS6_zero V c _ _ hz, PhiA6_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_A_0 c _ _ _ _ _ _ _ _ _ _ _ _ _ _ _ _ _ _ _ _ _ _ _ _)
              · unfold owns; iexists _; isplitr
                swap; · iexact HS1
                ipureintro; exact View.read_writes_of_cover _ _ _ _ _ (scover6_A_1 c _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := by omega
    by_cases h1 : t.val % 10 = 9
    · rw [show (dat6 V c).leavesExact 5 t = owns (c : Thread nD τ) (ms6_5 t) fullShare ((dat6 V c).after 5 t) from by
        unfold Dat.leavesExact; rw [liveAt6_5_C t (fun h => h0 ((hcond6_0 t).mp h)) ((hcond6_1 t).mpr h1)], after6_5]
      rw [outsAt6_C V c t h0 h1]
      unfold out6_C_5 sout6_C_0 sout6_C_1; (try dsimp only)
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_C_0 c _ _ _ _ _ _ _ _ _ _ _ _ _ _ _ _ _ _ _ _ _ _ _ _ _ _)
              · unfold owns; iexists _; isplitr
                swap; · iexact HS1
                ipureintro; exact View.read_writes_of_cover _ _ _ _ _ (scover6_C_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 c _ _ _ _ _ _ _ _ _ _ _ _ _ _ _ _ _ _ _ _ _ _ _ _ _ _)
    · rw [Dat.leavesExact_idle (dat6 V c) 5 t (idleAt6_5_B t (fun h => h0 ((hcond6_0 t).mp h)) (fun h => h1 ((hcond6_1 t).mp h))) (noFlush6_5_B t (fun h => h0 ((hcond6_0 t).mp h)) (fun h => h1 ((hcond6_1 t).mp h)))]
      rw [outsAt6_B V c t h0 h1]
      unfold sout6_B_0 sout6_B_1; (try dsimp only)
      · rw [PhiS6_castSucc V c t, PhiS6_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover6_B_0 c _ _ _ _ _ _ _ _ _ _ _ _ _ _ _ _ _ _ _ _ _ _ _ _ _ _)
              · unfold owns; iexists _; isplitr
                swap; · iexact HS1
                ipureintro; exact View.read_writes_of_cover _ _ _ _ _ (scover6_B_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation6 (c : Dev nD) : BodyObligation (dat6 (F := F) V c) (defs₀ (F := F)) Variants.none () Set.univ := fun t => by
  rw [bigSep_W6, bigSep_W6]
  exact sound_body6 V c t

theorem q6 (c : Dev nD) (w : Fin cfg6.W) : (dat6 V c).q w = fullShare := by dsimp only [dat6]
theorem owed6 (c : Dev nD) (t : Fin (cfg6.N + 1)) : (dat6 V c).owed t = 0 := by dsimp only [dat6]
theorem recorded6 (c : Dev nD) (t : Fin (cfg6.N + 1)) : (dat6 V c).recorded t = Set.univ := by dsimp only [dat6]

theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout6 (c : Dev nD) : (dat6 V c).Φ (Fin.last cfg6.N) ⊢ (Pipeline.ΦA spec6 c : sProp 𝕄) :=
  Phi_out6 V c _ (by rw [Fin.val_last]; have : cfg6.N = 10 := N_6; omega)

theorem hz2 : (![0, 0] : Fin 2 → ℕ) = fun _ => 0 := by
  funext a; fin_cases a <;> rfl

section

variable (c : Dev nD) (i : grid6.Coords) (arg1 : Memref sig .tc .vmem S10000x64 .f32) (harg1 : arg1.IsWhole) (arg2 : Memref sig .tc .vmem S10000x1 .i32) (harg2 : arg2.IsWhole) (arg3 : Memref sig .tc .vmem S128x64 .f32) (harg3 : arg3.IsWhole) (arg4 : Memref sig .tc .vmem S128x5 .f32) (harg4 : arg4.IsWhole) (arg5 : Memref sig .tc .vmem S1x5 .f32) (harg5 : arg5.IsWhole) (arg6 : Memref sig .tc .vmem S128x5 .f32) (harg6 : arg6.IsWhole) (arg7 : Memref sig .tc .vmem S128x64 .f32) (harg7 : arg7.IsWhole) (arg8 : Memref sig .tc .vmem S128x1 .f32) (harg8 : arg8.IsWhole)

theorem sout6_A_0_eq (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) :
    sout6_A_0 c i arg1 harg1 arg2 harg2 arg3 harg3 arg4 harg4 arg5 harg5 arg6 harg6 arg7 harg7 arg8 harg8 hc0 hc1 x0 x1 x2 x3 x4 = k6_pay4 x0 x1 k6_pay1 := by
  unfold sout6_A_0; rw [View.read_writes_eq_canon _ _ _ (scover6_A_0 c i arg1 harg1 arg2 harg2 arg3 harg3 arg4 harg4 arg5 harg5 arg6 harg6 arg7 harg7 arg8 harg8 hc0 hc1 x0 x1 x2 x3 x4)]; unfold kernelRun6_A
  dsimp only; sl_unfold_words
  rw [View.canon_cons_unit_zero (S := S128x64) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_A_1_eq (hc0 : cond6_0 i) (hc1 : ¬cond6_1 i)
    (x0 : Vec F S10000x64 .f32) (x1 : Vec F S10000x1 .i32) (x2 : Vec F S128x64 .f32) (x3 : Vec F S128x5 .f32) (x4 : Vec F S1x5 .f32) :
    sout6_A_1 c i arg1 harg1 arg2 harg2 arg3 harg3 arg4 harg4 arg5 harg5 arg6 harg6 arg7 harg7 arg8 harg8 hc0 hc1 x0 x1 x2 x3 x4 = k6_pay5 x1 k6_pay2 := by
  unfold sout6_A_1; rw [View.read_writes_eq_canon _ _ _ (scover6_A_1 c i arg1 harg1 arg2 harg2 arg3 harg3 arg4 harg4 arg5 harg5 arg6 harg6 arg7 harg7 arg8 harg8 hc0 hc1 x0 x1 x2 x3 x4)]; unfold kernelRun6_A
  dsimp only; sl_unfold_words
  rw [View.canon_cons_unit_zero (S := S128x1) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_B_0_eq (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_B_0 c i arg1 harg1 arg2 harg2 arg3 harg3 arg4 harg4 arg5 harg5 arg6 harg6 arg7 harg7 arg8 harg8 hc0 hc1 x0 x1 x2 x3 x4 xs0 xs1 = k6_pay4 x0 x1 xs0 := by
  unfold sout6_B_0; rw [View.read_writes_eq_canon _ _ _ (scover6_B_0 c i arg1 harg1 arg2 harg2 arg3 harg3 arg4 harg4 arg5 harg5 arg6 harg6 arg7 harg7 arg8 harg8 hc0 hc1 x0 x1 x2 x3 x4 xs0 xs1)]; unfold kernelRun6_B
  dsimp only; sl_unfold_words
  rw [View.canon_unit_zero (S := S128x64) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_B_1_eq (hc0 : ¬cond6_0 i) (hc1 : ¬cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_B_1 c i arg1 harg1 arg2 harg2 arg3 harg3 arg4 harg4 arg5 harg5 arg6 harg6 arg7 harg7 arg8 harg8 hc0 hc1 x0 x1 x2 x3 x4 xs0 xs1 = k6_pay5 x1 xs1 := by
  unfold sout6_B_1; rw [View.read_writes_eq_canon _ _ _ (scover6_B_1 c i arg1 harg1 arg2 harg2 arg3 harg3 arg4 harg4 arg5 harg5 arg6 harg6 arg7 harg7 arg8 harg8 hc0 hc1 x0 x1 x2 x3 x4 xs0 xs1)]; unfold kernelRun6_B
  dsimp only; sl_unfold_words
  rw [View.canon_unit_zero (S := S128x1) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_C_0_eq (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_C_0 c i arg1 harg1 arg2 harg2 arg3 harg3 arg4 harg4 arg5 harg5 arg6 harg6 arg7 harg7 arg8 harg8 hc0 hc1 x0 x1 x2 x3 x4 xs0 xs1 = k6_pay4 x0 x1 xs0 := by
  unfold sout6_C_0; rw [View.read_writes_eq_canon _ _ _ (scover6_C_0 c i arg1 harg1 arg2 harg2 arg3 harg3 arg4 harg4 arg5 harg5 arg6 harg6 arg7 harg7 arg8 harg8 hc0 hc1 x0 x1 x2 x3 x4 xs0 xs1)]; unfold kernelRun6_C
  dsimp only; sl_unfold_words
  rw [View.canon_unit_zero (S := S128x64) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem sout6_C_1_eq (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    sout6_C_1 c i arg1 harg1 arg2 harg2 arg3 harg3 arg4 harg4 arg5 harg5 arg6 harg6 arg7 harg7 arg8 harg8 hc0 hc1 x0 x1 x2 x3 x4 xs0 xs1 = k6_pay5 x1 xs1 := by
  unfold sout6_C_1; rw [View.read_writes_eq_canon _ _ _ (scover6_C_1 c i arg1 harg1 arg2 harg2 arg3 harg3 arg4 harg4 arg5 harg5 arg6 harg6 arg7 harg7 arg8 harg8 hc0 hc1 x0 x1 x2 x3 x4 xs0 xs1)]; unfold kernelRun6_C
  dsimp only; sl_unfold_words
  rw [View.canon_unit_zero (S := S128x1) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

theorem out6_C_5_eq (hc0 : ¬cond6_0 i) (hc1 : cond6_1 i)
    (x0 : Vec F S10000x64 .f32) (x1 : Vec F S10000x1 .i32) (x2 : Vec F S128x64 .f32) (x3 : Vec F S128x5 .f32) (x4 : Vec F S1x5 .f32) (xs0 : Vec F S128x64 .f32) (xs1 : Vec F S128x1 .f32) :
    out6_C_5 c i arg1 harg1 arg2 harg2 arg3 harg3 arg4 harg4 arg5 harg5 arg6 harg6 arg7 harg7 arg8 harg8 hc0 hc1 x0 x1 x2 x3 x4 xs0 xs1 = k6_pay6 (k6_pay4 x0 x1 xs0) (k6_pay5 x1 xs1) x2 x3 x4 := by
  unfold out6_C_5; rw [View.read_writes_eq_canon _ _ _ (cover6_C_5 c i arg1 harg1 arg2 harg2 arg3 harg3 arg4 harg4 arg5 harg5 arg6 harg6 arg7 harg7 arg8 harg8 hc0 hc1 x0 x1 x2 x3 x4 xs0 xs1)]; unfold kernelRun6_C
  dsimp only; sl_unfold_words
  rw [View.canon_unit_zero (S := S128x5) hz2]
  simp only [View.readCov_unit_zero (S := S128x64) _ hz2, View.readCov_unit_zero (S := S128x1) _ hz2, View.readAt_eq_ld, harg1.read_unread, harg2.read_unread, harg3.read_unread, harg4.read_unread, harg5.read_unread, harg7.read_unread, harg8.read_unread, View.ld_unit_zero (S := S10000x64) hz2, View.ld_unit_zero (S := S10000x1) hz2, View.ld_unit_zero (S := S128x64) hz2, View.ld_unit_zero (S := S128x5) hz2, View.ld_unit_zero (S := S1x5) hz2, View.ld_unit_zero (S := S128x1) hz2]

end

def sum6 (c : Dev nD) (n : ℕ) (h : n < cfg6.N) : Vec F S128x64 .f32 := (outsAt6 V c n h).2.1

def cnt6 (c : Dev nD) (n : ℕ) (h : n < cfg6.N) : Vec F S128x1 .f32 := (outsAt6 V c n h).2.2

theorem sum6_A (c : Dev nD) (t : Fin cfg6.N) (h0 : t.val % 10 = 0) (h1 : ¬t.val % 10 = 9) :
    (outsAt6 V c t.val t.isLt).2.1 = k6_pay4 (iblk6 V c 0 t) (iblk6 V c 1 t) k6_pay1 := by
  rw [outsAt6_A V c t h0 h1]; dsimp only
  exact sout6_A_0_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)
theorem cnt6_A (c : Dev nD) (t : Fin cfg6.N) (h0 : t.val % 10 = 0) (h1 : ¬t.val % 10 = 9) :
    (outsAt6 V c t.val t.isLt).2.2 = k6_pay5 (iblk6 V c 1 t) k6_pay2 := by
  rw [outsAt6_A V c t h0 h1]; dsimp only
  exact sout6_A_1_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t)

theorem sum6_BC (c : Dev nD) (t : Fin cfg6.N) (h0 : ¬t.val % 10 = 0) :
    (outsAt6 V c t.val t.isLt).2.1 = k6_pay4 (iblk6 V c 0 t) (iblk6 V c 1 t) (outsAt6 V c (t.val - 1) (Nat.lt_of_le_of_lt (Nat.sub_le _ _) t.isLt)).2.1 := by
  by_cases h1 : t.val % 10 = 9
  · rw [outsAt6_C V c t h0 h1]; dsimp only
    exact sout6_C_0_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2
  · rw [outsAt6_B V c t h0 h1]; dsimp only
    exact sout6_B_0_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2
theorem cnt6_BC (c : Dev nD) (t : Fin cfg6.N) (h0 : ¬t.val % 10 = 0) :
    (outsAt6 V c t.val t.isLt).2.2 = k6_pay5 (iblk6 V c 1 t) (outsAt6 V c (t.val - 1) (Nat.lt_of_le_of_lt (Nat.sub_le _ _) t.isLt)).2.2 := by
  by_cases h1 : t.val % 10 = 9
  · rw [outsAt6_C V c t h0 h1]; dsimp only
    exact sout6_C_1_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2
  · rw [outsAt6_B V c t h0 h1]; dsimp only
    exact sout6_B_1_eq c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2

theorem sum6_zero (c : Dev nD) (h : 0 < cfg6.N) :
    sum6 V c 0 h = k6_pay4 (iblk6 V c 0 ⟨0, h⟩) (iblk6 V c 1 ⟨0, h⟩) k6_pay1 :=
  sum6_A V c ⟨0, h⟩ (Nat.zero_mod _) (by (try dsimp only); omega)
theorem sum6_succ (c : Dev nD) (n : ℕ) (h : n + 1 < cfg6.N) :
    sum6 V c (n + 1) h = k6_pay4 (iblk6 V c 0 ⟨n + 1, h⟩) (iblk6 V c 1 ⟨n + 1, h⟩) (sum6 V c n (Nat.lt_of_succ_lt h)) :=
  sum6_BC V c ⟨n + 1, h⟩ (by have hN : n + 1 < 10 := lt_of_lt_of_eq h (show cfg6.N = 10 from N_6); (try dsimp only); omega)
theorem cnt6_zero (c : Dev nD) (h : 0 < cfg6.N) :
    cnt6 V c 0 h = k6_pay5 (iblk6 V c 1 ⟨0, h⟩) k6_pay2 :=
  cnt6_A V c ⟨0, h⟩ (Nat.zero_mod _) (by (try dsimp only); omega)
theorem cnt6_succ (c : Dev nD) (n : ℕ) (h : n + 1 < cfg6.N) :
    cnt6 V c (n + 1) h = k6_pay5 (iblk6 V c 1 ⟨n + 1, h⟩) (cnt6 V c n (Nat.lt_of_succ_lt h)) :=
  cnt6_BC V c ⟨n + 1, h⟩ (by have hN : n + 1 < 10 := lt_of_lt_of_eq h (show cfg6.N = 10 from N_6); (try dsimp only); omega)

theorem out6_last (c : Dev nD) :
    (dat6 V c).after 5 t6_9 = k6_pay6 (sum6 V c 9 t6_9.isLt) (cnt6 V c 9 t6_9.isLt) (iblk6 V c 2 t6_9) (iblk6 V c 3 t6_9) (iblk6 V c 4 t6_9) := by
  have h0 : ¬t6_9.val % 10 = 0 := by decide
  have h1 : t6_9.val % 10 = 9 := by decide
  have e1 : sum6 V c 9 t6_9.isLt = k6_pay4 (iblk6 V c 0 t6_9) (iblk6 V c 1 t6_9) (outsAt6 V c (t6_9.val - 1) (Nat.lt_of_le_of_lt (Nat.sub_le _ _) t6_9.isLt)).2.1 := sum6_BC V c t6_9 h0
  have e2 : cnt6 V c 9 t6_9.isLt = k6_pay5 (iblk6 V c 1 t6_9) (outsAt6 V c (t6_9.val - 1) (Nat.lt_of_le_of_lt (Nat.sub_le _ _) t6_9.isLt)).2.2 := cnt6_BC V c t6_9 h0
  rw [e1, e2, after6_5, outsAt6_C V c t6_9 h0 h1]; dsimp only
  exact out6_C_5_eq c (grid6.coords t6_9) (ms6_0 t6_9) (hs6_0 t6_9) (ms6_1 t6_9) (hs6_1 t6_9) (ms6_2 t6_9) (hs6_2 t6_9) (ms6_3 t6_9) (hs6_3 t6_9) (ms6_4 t6_9) (hs6_4 t6_9) (ms6_5 t6_9) (hs6_5 t6_9) scM6_0 (Memref.isWhole_whole _) scM6_1 (Memref.isWhole_whole _) (fun h => h0 ((hcond6_0 t6_9).mp h)) ((hcond6_1 t6_9).mpr h1) (iblk6 V c 0 t6_9) (iblk6 V c 1 t6_9) (iblk6 V c 2 t6_9) (iblk6 V c 3 t6_9) (iblk6 V c 4 t6_9) (outsAt6 V c (t6_9.val - 1) (Nat.lt_of_le_of_lt (Nat.sub_le _ _) t6_9.isLt)).2.1 (outsAt6 V c (t6_9.val - 1) (Nat.lt_of_le_of_lt (Nat.sub_le _ _) t6_9.isLt)).2.2

end Cert.KernelIdeal.Frm

end
-- ==== Proof.KI.Run.lean ====
import proofs.«430252_j4990751998361_2_alg».proof.Proof.Gen.KernelIdeal.Launch
import proofs.«430252_j4990751998361_2_alg».proof.Proof.Gen.KernelIdeal.Skeleton
import proofs.«430252_j4990751998361_2_alg».proof.Proof.Gen.KernelIdeal.Points
import proofs.«430252_j4990751998361_2_alg».proof.Proof.Gen.KernelIdeal.Regions
import proofs.«430252_j4990751998361_2_alg».proof.Proof.KI.A0
import proofs.«430252_j4990751998361_2_alg».proof.Proof.KI.A1
import proofs.«430252_j4990751998361_2_alg».proof.Proof.KI.A2
import proofs.«430252_j4990751998361_2_alg».proof.Proof.KI.A3
import proofs.«430252_j4990751998361_2_alg».proof.Proof.KI.A4
import proofs.«430252_j4990751998361_2_alg».proof.Proof.KI.A5
import proofs.«430252_j4990751998361_2_alg».proof.Proof.KI.R6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Exit

variable {cfg : Pipeline.Cfg sig Λ₀} {c : Dev nD} (W : Valuation τ sig (Elt F)) (d : Dat τ (Elt F) Unit ℕ (UR sig nD τ) ℕ cfg c)

-- A region's exit contents: its arrays at their final contents, every other buffer as entered.
def exitW : Valuation τ sig (Elt F) := Pipeline.withArrays cfg.spec c W fun w => d.arrAt w cfg.N

theorem exitW_arr (hinj : Function.Injective (Pipeline.arrRef cfg.spec)) (w : Fin cfg.W) :
    exitW W d (Proc.devRef .tc (Pipeline.arrRef cfg.spec w)) = d.arrAt w cfg.N :=
  Pipeline.withArrays_arr cfg.spec hinj c _ _ w

theorem exitW_of_ne (b : Ref sig .tc) (hb : ∀ w, Pipeline.arrRef cfg.spec w ≠ b) :
    exitW W d (Proc.devRef .tc b) = W (Proc.devRef .tc b) :=
  Pipeline.withArrays_of_ne cfg.spec c _ _ b hb

theorem exitW_keep (hinj : Function.Injective (Pipeline.arrRef cfg.spec))
    (hA : ∀ w, d.A w = W (Proc.devRef .tc (Pipeline.arrRef cfg.spec w))) (outs : List (Ref sig .tc))
    (houts : ∀ w, (cfg.win w).isOut = true → Pipeline.arrRef cfg.spec w ∈ outs) (b : Ref sig .tc) (hb : b ∉ outs) :
    exitW W d (Proc.devRef .tc b) = W (Proc.devRef .tc b) := by
  by_cases h : ∃ w, Pipeline.arrRef cfg.spec w = b
  · obtain ⟨w, rfl⟩ := h
    have hin : (cfg.win w).isOut = false := by
      cases hw : (cfg.win w).isOut
      · rfl
      · exact absurd (houts w hw) hb
    rw [exitW_arr W d hinj, d.arrAt_in w hin, hA]
  · exact exitW_of_ne W d b fun w e => h ⟨w, e⟩

end Exit

variable (m : (ℓ : Loc nD τ sig) → Buf (Elt F) ℓ) (ρ : Dev nD → PrngReg)

-- The contents of a core's buffers at each boundary of @main: a fold from the launch memory.
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) := exitW (W3 m ρ c) (dat0 (V3 m ρ) c)
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) := exitW (W5 m ρ c) (dat1 (V5 m ρ) c)
abbrev V6 : (c : Dev nD) → (b : Ref sig .tc) → Buf (Elt F) ((c : Thread nD τ).loc b) := fun c b => W6 m ρ c b
def W7 (c : Dev nD) : Valuation τ sig (Elt F) := exitW (W6 m ρ c) (dat2 (V6 m ρ) c)
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) := exitW (W8 m ρ c) (dat3 (V8 m ρ) c)
abbrev V9 : (c : Dev nD) → (b : Ref sig .tc) → Buf (Elt F) ((c : Thread nD τ).loc b) := fun c b => W9 m ρ c b
def W10 (c : Dev nD) : Valuation τ sig (Elt F) := exitW (W9 m ρ c) (dat4 (V9 m ρ) c)
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) := exitW (W11 m ρ c) (dat5 (V11 m ρ) c)
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
def W14 (c : Dev nD) : Valuation τ sig (Elt F) := exitW (W13 m ρ c) (dat6 (V13 m ρ) c)

def Wn : Fin 15 → Dev nD → Valuation τ sig (Elt F)
  | ⟨0, _⟩ => W0 m ρ | ⟨1, _⟩ => W1 m ρ | ⟨2, _⟩ => W2 m ρ | ⟨3, _⟩ => W3 m ρ | ⟨4, _⟩ => W4 m ρ
  | ⟨5, _⟩ => W5 m ρ | ⟨6, _⟩ => W6 m ρ | ⟨7, _⟩ => W7 m ρ | ⟨8, _⟩ => W8 m ρ | ⟨9, _⟩ => W9 m ρ
  | ⟨10, _⟩ => W10 m ρ | ⟨11, _⟩ => W11 m ρ | ⟨12, _⟩ => W12 m ρ | ⟨13, _⟩ => W13 m ρ | ⟨14, _⟩ => W14 m ρ

-- What item k of @main may write: a host stretch's results, a region's output array.
noncomputable def wr : Fin 14 → List (Ref sig .tc)
  | ⟨0, _⟩ => hostOps0_W | ⟨1, _⟩ => hostOps0_1_W | ⟨2, _⟩ => hostOps0_2_W | ⟨3, _⟩ => [main_v30]
  | ⟨4, _⟩ => hostOps1_W | ⟨5, _⟩ => [main_v45] | ⟨6, _⟩ => [main_v46] | ⟨7, _⟩ => hostOps3_W
  | ⟨8, _⟩ => [main_v61] | ⟨9, _⟩ => [main_v62] | ⟨10, _⟩ => hostOps5_W | ⟨11, _⟩ => [main_v77]
  | ⟨12, _⟩ => hostOps6_W | ⟨13, _⟩ => [main_v80]

theorem step_keep (k : Fin 14) (c : Dev nD) (b : Ref sig .tc) :
    b ∉ wr k → Wn m ρ k.succ c (Proc.devRef .tc b) = Wn m ρ k.castSucc c (Proc.devRef .tc b) :=
  match k with
  | ⟨0, _⟩ => (StableHlo.after_of_writes_sub hostOps0 _ hostOps0_writes :
      b ∉ hostOps0_W → W1 m ρ c (Proc.devRef .tc b) = W0 m ρ c (Proc.devRef .tc b))
  | ⟨1, _⟩ => (StableHlo.after_of_writes_sub hostOps0_1 _ hostOps0_1_writes :
      b ∉ hostOps0_1_W → W2 m ρ c (Proc.devRef .tc b) = W1 m ρ c (Proc.devRef .tc b))
  | ⟨2, _⟩ => (StableHlo.after_of_writes_sub hostOps0_2 _ hostOps0_2_writes :
      b ∉ hostOps0_2_W → W3 m ρ c (Proc.devRef .tc b) = W2 m ρ c (Proc.devRef .tc b))
  | ⟨3, _⟩ => (exitW_keep _ _ launch0.win.arr_inj (A_eq0 (V3 m ρ) c) [main_v30] (by decide) b :
      b ∉ [main_v30] → W4 m ρ c (Proc.devRef .tc b) = W3 m ρ c (Proc.devRef .tc b))
  | ⟨4, _⟩ => (StableHlo.after_of_writes_sub hostOps1 _ hostOps1_writes :
      b ∉ hostOps1_W → W5 m ρ c (Proc.devRef .tc b) = W4 m ρ c (Proc.devRef .tc b))
  | ⟨5, _⟩ => (exitW_keep _ _ launch1.win.arr_inj (A_eq1 (V5 m ρ) c) [main_v45] (by decide) b :
      b ∉ [main_v45] → W6 m ρ c (Proc.devRef .tc b) = W5 m ρ c (Proc.devRef .tc b))
  | ⟨6, _⟩ => (exitW_keep _ _ launch2.win.arr_inj (A_eq2 (V6 m ρ) c) [main_v46] (by decide) b :
      b ∉ [main_v46] → W7 m ρ c (Proc.devRef .tc b) = W6 m ρ c (Proc.devRef .tc b))
  | ⟨7, _⟩ => (StableHlo.after_of_writes_sub hostOps3 _ hostOps3_writes :
      b ∉ hostOps3_W → W8 m ρ c (Proc.devRef .tc b) = W7 m ρ c (Proc.devRef .tc b))
  | ⟨8, _⟩ => (exitW_keep _ _ launch3.win.arr_inj (A_eq3 (V8 m ρ) c) [main_v61] (by decide) b :
      b ∉ [main_v61] → W9 m ρ c (Proc.devRef .tc b) = W8 m ρ c (Proc.devRef .tc b))
  | ⟨9, _⟩ => (exitW_keep _ _ launch4.win.arr_inj (A_eq4 (V9 m ρ) c) [main_v62] (by decide) b :
      b ∉ [main_v62] → W10 m ρ c (Proc.devRef .tc b) = W9 m ρ c (Proc.devRef .tc b))
  | ⟨10, _⟩ => (StableHlo.after_of_writes_sub hostOps5 _ hostOps5_writes :
      b ∉ hostOps5_W → W11 m ρ c (Proc.devRef .tc b) = W10 m ρ c (Proc.devRef .tc b))
  | ⟨11, _⟩ => (exitW_keep _ _ launch5.win.arr_inj (A_eq5 (V11 m ρ) c) [main_v77] (by decide) b :
      b ∉ [main_v77] → W12 m ρ c (Proc.devRef .tc b) = W11 m ρ c (Proc.devRef .tc b))
  | ⟨12, _⟩ => (StableHlo.after_of_writes_sub hostOps6 _ hostOps6_writes :
      b ∉ hostOps6_W → W13 m ρ c (Proc.devRef .tc b) = W12 m ρ c (Proc.devRef .tc b))
  | ⟨13, _⟩ => (exitW_keep _ _ launch6.win.arr_inj (A_eq6 (V13 m ρ) c) [main_v80] (by decide) b :
      b ∉ [main_v80] → W14 m ρ c (Proc.devRef .tc b) = W13 m ρ c (Proc.devRef .tc b))

-- By induction on the number of items crossed.
theorem keep (j : ℕ) (c : Dev nD) (b : Ref sig .tc) : ∀ (n : ℕ) (hn : j + n < 15),
    (∀ i : Fin 14, j ≤ i.val → i.val < j + n → b ∉ wr i) →
    Wn m ρ ⟨j + n, hn⟩ c (Proc.devRef .tc b) = Wn m ρ ⟨j, by omega⟩ c (Proc.devRef .tc b)
  | 0, _, _ => rfl
  | n + 1, hn, hb =>
    (step_keep m ρ ⟨j + n, by omega⟩ c b (hb _ (Nat.le_add_right _ _) (Nat.lt_succ_self _))).trans
      (keep j c b n (by omega) fun i h1 h2 => hb i h1 (Nat.lt_succ_of_lt h2))

def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

set_option backward.isDefEq.respectTransparency.types false in
-- The seven regions differ only in their proof data: one segment record serves them all.
def regOf (p : Fin 7) (lf : Pipeline.LaunchFacts (nD := nD) (τ := τ) cfgs p) (Win Wout : Dev nD → Valuation τ sig (Elt F))
    (hW : ∀ c, Wout c = exitW (Win c) (pdats m ρ p c))
    (hbody : ∀ c, BodyObligation (pdats m ρ p c) (defs₀ (F := F)) 𝒱₀ () Set.univ)
    (hq : ∀ c w, (pdats m ρ p c).q w = fullShare)
    (hA : ∀ c w, (pdats m ρ p c).A w = Win c (Proc.devRef .tc (Pipeline.arrRef (cfgs p).spec w)))
    (howed : ∀ c t, (pdats m ρ p c).owed t = 0) (hrec : ∀ c, (pdats m ρ p c).recorded 0 = Set.univ)
    (hΦin : ∀ c, (Pipeline.ΦA (cfgs p).spec c : sProp 𝕄) ⊢ (pdats m ρ p c).Φ 0)
    (hΦout : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b : Ref sig .tc => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    refine BIBase.Entails.trans (hΦout c) ?_
    rw [Pipeline.ownSems0_none]; unfold Pipeline.ΦA
    iintro ⟨Hr, Hp⟩
    isplitl [Hp]; · iexact Hp
    isplitr; · iempintro
    iexact Hr
  hexit c := by
    rw [hW c]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b : Ref sig .tc => Win c b) (fun b : Ref sig .tc => exitW (Win c) (pdats m ρ p c) b) ((pdats m ρ p c).arrAt · _)
      (fun w => (exitW_arr (Win c) (pdats m ρ p c) lf.win.arr_inj w).symm)
      (fun b hb => exitW_of_ne (Win c) (pdats m ρ p c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
abbrev reg0 := regOf m ρ 0 launch0 (W3 m ρ) (W4 m ρ) (fun _ => rfl) (body_obligation0 (V3 m ρ)) (fun _ _ => rfl) (A_eq0 (V3 m ρ)) (fun _ _ => rfl) (fun _ => rfl) (fun _ => .rfl) (fun _ => .rfl)
set_option backward.isDefEq.respectTransparency.types false in
abbrev reg1 := regOf m ρ 1 launch1 (W5 m ρ) (W6 m ρ) (fun _ => rfl) (body_obligation1 (V5 m ρ)) (fun _ _ => rfl) (A_eq1 (V5 m ρ)) (fun _ _ => rfl) (fun _ => rfl) (fun _ => .rfl) (fun _ => .rfl)
set_option backward.isDefEq.respectTransparency.types false in
abbrev reg2 := regOf m ρ 2 launch2 (W6 m ρ) (W7 m ρ) (fun _ => rfl) (body_obligation2 (V6 m ρ)) (fun _ _ => rfl) (A_eq2 (V6 m ρ)) (fun _ _ => rfl) (fun _ => rfl) (fun _ => .rfl) (fun _ => .rfl)
set_option backward.isDefEq.respectTransparency.types false in
abbrev reg3 := regOf m ρ 3 launch3 (W8 m ρ) (W9 m ρ) (fun _ => rfl) (body_obligation3 (V8 m ρ)) (fun _ _ => rfl) (A_eq3 (V8 m ρ)) (fun _ _ => rfl) (fun _ => rfl) (fun _ => .rfl) (fun _ => .rfl)
set_option backward.isDefEq.respectTransparency.types false in
abbrev reg4 := regOf m ρ 4 launch4 (W9 m ρ) (W10 m ρ) (fun _ => rfl) (body_obligation4 (V9 m ρ)) (fun _ _ => rfl) (A_eq4 (V9 m ρ)) (fun _ _ => rfl) (fun _ => rfl) (fun _ => .rfl) (fun _ => .rfl)
set_option backward.isDefEq.respectTransparency.types false in
abbrev reg5 := regOf m ρ 5 launch5 (W11 m ρ) (W12 m ρ) (fun _ => rfl) (body_obligation5 (V11 m ρ)) (fun _ _ => rfl) (A_eq5 (V11 m ρ)) (fun _ _ => rfl) (fun _ => rfl) (fun _ => .rfl) (fun _ => .rfl)
set_option backward.isDefEq.respectTransparency.types false in
abbrev reg6 := regOf m ρ 6 launch6 (W13 m ρ) (W14 m ρ) (fun _ => rfl) (body_obligation6 (V13 m ρ)) (q6 (V13 m ρ)) (A_eq6 (V13 m ρ)) (owed6 (V13 m ρ)) (fun c => recorded6 (V13 m ρ) c 0) (hin6 (V13 m ρ)) (hout6 (V13 m ρ))

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

-- No item of @main writes an argument: each ends as launched.
theorem arg_kept (c : Dev nD) (b : Ref sig .tc) (hb : ∀ i : Fin 14, b ∉ wr i) :
    W14 m ρ c (Proc.devRef .tc b) = m ((c : Thread nD τ).loc b) :=
  keep m ρ 0 c b 14 (by decide) fun i _ _ => hb i

theorem run : θ_run defs (onTc (τ := τ) (main (F := F))) ⟨m, fun _ => 0, ρ⟩ (fun r => ∀ c : Dev nD,
      r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k (b : Ref sig .tc) (hu : ¬ (Proc.devRef .tc b : DevRef τ sig).isScoped) (hb : ∀ i : Fin 14, b ∉ wr i) :
        r.2.mem ((c.tc : Thread nD τ).loc b) = m ((c.tc : Thread nD τ).loc b) :=
      (h c _ (mem_uc b hu)).trans (arg_kept m ρ c b hb)
    ⟨h c _ (mem_uc main_v80 (by decide)),
     k main_arg0 (by decide) (by decide), k main_arg1 (by decide) (by decide), k main_arg2 (by decide) (by decide),
     k main_arg3 (by decide) (by decide), k main_arg4 (by decide) (by decide), k main_arg5 (by decide) (by decide),
     k main_arg6 (by decide) (by decide), k main_arg7 (by decide) (by decide), k main_arg8 (by decide) (by decide),
     k main_arg9 (by decide) (by decide), k main_arg10 (by decide) (by decide), k main_arg11 (by decide) (by decide)⟩)
    (run_main m ρ)

end Cert.KernelIdeal.Frm

end
-- ==== Proof.Chains.lean ====
import Idealize.ShloMosaic.PureOps

noncomputable section

namespace Cert.Chains

open Idealize.ShloMosaic

namespace Sh
abbrev S2x1000000 : Shape := ⟨2, ![2, 1000000]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
end Sh
open Sh

theorem slices_0 : S2x1000000.Slices ![0, 0] S1x1000000 := by decide
theorem slices_1 : S2x1000000.Slices ![1, 0] S1x1000000 := by decide
theorem casts_row : S1x1000000.ShapeCasts S1000000 := by decide
theorem concats : Shape.Concatenates [S1000000, S100000] S1100000 0 := by decide
theorem bcast_edges : S_.BroadcastsInDim S1100000 (![] : Fin 0 → Fin S1100000.rank) := by decide
theorem bcast_nodes : S_.BroadcastsInDim S100000 (![] : Fin 0 → Fin S100000.rank) := by decide
theorem bcast_col : S1100000.BroadcastsInDim S1100000x1 (![0] : Fin 1 → Fin S1100000x1.rank) := by decide
theorem bcast_rows : S1100000x1.BroadcastsInDim S1100000x64 (![0, 1] : Fin 2 → Fin S1100000x64.rank) := by decide
theorem bcast_feat : S_.BroadcastsInDim S100000x64 (![] : Fin 0 → Fin S100000x64.rank) := by decide

def scatterNodes : ScatterDims S100000 S1100000x1 S1100000 where
  updateWindowDims := []
  insertedWindowDims := [0]
  scatterDimsToOperandDims := [0]
  indexVectorDim := 1
  wf := by decide

def gatherNodes : GatherDims S100000 S1100000x1 S1100000 where
  offsetDims := []
  collapsedSliceDims := [0]
  operandBatchingDims := []
  startIndicesBatchingDims := []
  startIndexMap := [0]
  indexVectorDim := 1
  sliceSizes := ![1]
  wf := by decide

def gatherRows : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := by decide

def scatterRows : ScatterDims S100000x64 S1100000x1 S1100000x64 where
  updateWindowDims := [1]
  insertedWindowDims := [0]
  scatterDimsToOperandDims := [0]
  indexVectorDim := 1
  wf := by decide

variable {F : FTy → Type} [FloatOps F]

def srcOf (e : IVec S2x1000000 32) : IVec S1100000 32 :=
  concatenate S1100000 0
    [⟨S1000000, shapeCast S1000000 (extractStridedSlice S1x1000000 ![0, 0] e slices_0) casts_row⟩,
     ⟨S100000, iotaInDim S100000 32 0⟩] concats

def dstOf (e : IVec S2x1000000 32) : IVec S1100000 32 :=
  concatenate S1100000 0
    [⟨S1000000, shapeCast S1000000 (extractStridedSlice S1x1000000 ![1, 0] e slices_1) casts_row⟩,
     ⟨S100000, iotaInDim S100000 32 0⟩] concats

def wrap (ix : IVec S1100000 32) : IVec S1100000 32 :=
  select (cmpi .slt ix (broadcastInDim S1100000 ![] bcast_edges (constantI S_ 32 0#32)))
    (addi ix (broadcastInDim S1100000 ![] bcast_edges (constantI S_ 32 100000#32))) ix

def col (ix : IVec S1100000 32) : IVec S1100000x1 32 := broadcastInDim S1100000x1 ![0] bcast_col ix

def degOf (dst : IVec S1100000 32) : FVec F S100000 .f32 :=
  Host.scatterAdd scatterNodes
    (broadcastInDim S100000 ![] bcast_nodes (constant (F := F) S_ .f32 0x00000000#32))
    (col dst)
    (broadcastInDim S1100000 ![] bcast_edges (constant (F := F) S_ .f32 0x3F800000#32))

def dinvOf (deg : FVec F S100000 .f32) : FVec F S100000 .f32 :=
  select (cmpf .ogt deg (broadcastInDim S100000 ![] bcast_nodes (constant (F := F) S_ .f32 0x00000000#32)))
    (Host.rsqrt deg)
    (broadcastInDim S100000 ![] bcast_nodes (constant (F := F) S_ .f32 0x00000000#32))

def normOfIx (src dst : IVec S1100000 32) : FVec F S1100000 .f32 :=
  mulf (Host.gather gatherNodes (dinvOf (F := F) (degOf dst)) (col (wrap src)))
    (Host.gather gatherNodes (dinvOf (F := F) (degOf dst)) (col (wrap dst)))

def normOf (e : IVec S2x1000000 32) : FVec F S1100000 .f32 := normOfIx (srcOf e) (dstOf e)

def aggregate (src dst : IVec S1100000 32) (nrm : FVec F S1100000 .f32) (y : FVec F S100000x64 .f32) :
    FVec F S100000x64 .f32 :=
  Host.scatterAdd scatterRows
    (broadcastInDim S100000x64 ![] bcast_feat (constant (F := F) S_ .f32 0x00000000#32))
    (col dst)
    (mulf (broadcastInDim S1100000x64 ![0, 1] bcast_rows (broadcastInDim S1100000x1 ![0] bcast_col nrm))
      (Host.gather gatherRows y (col (wrap src))))

end Cert.Chains

end
-- ==== Proof.KI.HostK.lean ====
import proofs.«430252_j4990751998361_2_alg».proof.Proof.Gen.KernelIdeal.Launch
import proofs.«430252_j4990751998361_2_alg».proof.Proof.Chains

set_option maxRecDepth 16384

noncomputable section

namespace Cert.KernelIdeal.Hst

open Cert.KernelIdeal Cert.KernelIdeal.Gen
open Idealize.ShloMosaic Idealize.ShloMosaic.TcCoe

variable {F : FTy → Type} [FloatOps F]

theorem norm_chain_v3 (W : Valuation τ sig (Elt F)) :
    (StableHlo.after hostOps0_2 (StableHlo.after hostOps0_1 (StableHlo.after hostOps0 W)) (Proc.devRef .tc main_v3) : IVec S1100000 32)
      = Chains.srcOf (W (Proc.devRef .tc main_arg1)) := by
  dsimp only [hostOps0, hostOps0_1, hostOps0_2]
  open StableHlo in after_results_simp
  all_goals (try simp only [StableHlo.TRef.ofBuf, StableHlo.TRef.toBuf, cast_eq])
  rfl

theorem norm_chain_v6 (W : Valuation τ sig (Elt F)) :
    (StableHlo.after hostOps0_2 (StableHlo.after hostOps0_1 (StableHlo.after hostOps0 W)) (Proc.devRef .tc main_v6) : IVec S1100000 32)
      = Chains.dstOf (W (Proc.devRef .tc main_arg1)) := by
  dsimp only [hostOps0, hostOps0_1, hostOps0_2]
  open StableHlo in after_results_simp
  all_goals (try simp only [StableHlo.TRef.ofBuf, StableHlo.TRef.toBuf, cast_eq])
  rfl

set_option maxHeartbeats 4000000 in
theorem norm_chain_v29 (W : Valuation τ sig (Elt F)) :
    (StableHlo.after hostOps0_2 (StableHlo.after hostOps0_1 (StableHlo.after hostOps0 W)) (Proc.devRef .tc main_v29) : FVec F S1100000 .f32)
      = Chains.normOf (W (Proc.devRef .tc main_arg1)) := by
  dsimp only [hostOps0, hostOps0_1, hostOps0_2]
  open StableHlo in after_results_simp
  all_goals (try simp only [StableHlo.TRef.ofBuf, StableHlo.TRef.toBuf, cast_eq])
  rfl

theorem agg1 (W : Valuation τ sig (Elt F)) :
    (StableHlo.after hostOps1 W (Proc.devRef .tc main_v43) : FVec F S100000x64 .f32)
      = Chains.aggregate (W (Proc.devRef .tc main_v3)) (W (Proc.devRef .tc main_v6)) (W (Proc.devRef .tc main_v29)) (W (Proc.devRef .tc main_v30)) := by
  dsimp only [hostOps1]
  open StableHlo in after_results_simp
  rfl

theorem bias1_row (W : Valuation τ sig (Elt F)) :
    (StableHlo.after hostOps1 W (Proc.devRef .tc main_v44) : FVec F S1x64 .f32)
      = shapeCast S1x64 (W (Proc.devRef .tc main_arg5) : FVec F S64 .f32) shapeCasts_S64_S1x64 := by
  dsimp only [hostOps1]
  open StableHlo in after_results_simp
  rfl

theorem agg2 (W : Valuation τ sig (Elt F)) :
    (StableHlo.after hostOps3 W (Proc.devRef .tc main_v59) : FVec F S100000x64 .f32)
      = Chains.aggregate (W (Proc.devRef .tc main_v3)) (W (Proc.devRef .tc main_v6)) (W (Proc.devRef .tc main_v29)) (W (Proc.devRef .tc main_v46)) := by
  dsimp only [hostOps3]
  open StableHlo in after_results_simp
  rfl

theorem bias2_row (W : Valuation τ sig (Elt F)) :
    (StableHlo.after hostOps3 W (Proc.devRef .tc main_v60) : FVec F S1x64 .f32)
      = shapeCast S1x64 (W (Proc.devRef .tc main_arg7) : FVec F S64 .f32) shapeCasts_S64_S1x64 := by
  dsimp only [hostOps3]
  open StableHlo in after_results_simp
  rfl

theorem agg3 (W : Valuation τ sig (Elt F)) :
    (StableHlo.after hostOps5 W (Proc.devRef .tc main_v75) : FVec F S100000x64 .f32)
      = Chains.aggregate (W (Proc.devRef .tc main_v3)) (W (Proc.devRef .tc main_v6)) (W (Proc.devRef .tc main_v29)) (W (Proc.devRef .tc main_v62)) := by
  dsimp only [hostOps5]
  open StableHlo in after_results_simp
  rfl

theorem bias3_row (W : Valuation τ sig (Elt F)) :
    (StableHlo.after hostOps5 W (Proc.devRef .tc main_v76) : FVec F S1x64 .f32)
      = shapeCast S1x64 (W (Proc.devRef .tc main_arg9) : FVec F S64 .f32) shapeCasts_S64_S1x64 := by
  dsimp only [hostOps5]
  open StableHlo in after_results_simp
  rfl

theorem batch_col (W : Valuation τ sig (Elt F)) :
    (StableHlo.after hostOps6 W (Proc.devRef .tc main_v78) : IVec S100000x1 32)
      = shapeCast S100000x1 (W (Proc.devRef .tc main_arg2) : IVec S100000 32) shapeCasts_S100000_S100000x1 := by
  dsimp only [hostOps6]
  open StableHlo in after_results_simp
  rfl

theorem bl_row (W : Valuation τ sig (Elt F)) :
    (StableHlo.after hostOps6 W (Proc.devRef .tc main_v79) : FVec F S1x5 .f32)
      = shapeCast S1x5 (W (Proc.devRef .tc main_arg11) : FVec F S5 .f32) shapeCasts_S5_S1x5 := by
  dsimp only [hostOps6]
  open StableHlo in after_results_simp
  rfl

end Cert.KernelIdeal.Hst

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (n0 n1 : Nat) : Type := (⟨2, ![n0, n1]⟩ : Shape).Idx → EReal
abbrev IArr (n0 n1 : Nat) : Type := (⟨2, ![n0, n1]⟩ : Shape).Idx → BitVec 32

theorem ext_ix2 {α : Type} {n0 n1 : Nat} {f g : (⟨2, ![n0, n1]⟩ : Shape).Idx → α}
    (h : ∀ (a : Fin n0) (b : Fin n1), f (ix2 a b) = g (ix2 a b)) : f = g :=
  funext fun j => by rw [eq_ix2 j]; exact h _ _

def lin2At (x : Arr 100000 2) (w : Arr 2 64) (r : Fin 100000) (j : Fin 64) : EReal :=
  ∑ k : Fin 2, x (ix2 r k) * w (ix2 k j)
def lin2 (x : Arr 100000 2) (w : Arr 2 64) : Arr 100000 64 := fun i => lin2At x w (i 0) (i 1)
theorem lin2_apply (x : Arr 100000 2) (w : Arr 2 64) (r : Fin 100000) (j : Fin 64) :
    lin2 x w (ix2 r j) = lin2At x w r j := rfl

def lin64At (x : Arr 100000 64) (w : Arr 64 64) (r : Fin 100000) (j : Fin 64) : EReal :=
  ∑ k : Fin 64, x (ix2 r k) * w (ix2 k j)
def lin64 (x : Arr 100000 64) (w : Arr 64 64) : Arr 100000 64 := fun i => lin64At x w (i 0) (i 1)
theorem lin64_apply (x : Arr 100000 64) (w : Arr 64 64) (r : Fin 100000) (j : Fin 64) :
    lin64 x w (ix2 r j) = lin64At x w r j := rfl

def biasAt (a : Arr 100000 64) (b : Arr 1 64) (r : Fin 100000) (j : Fin 64) : EReal := a (ix2 r j) + b (ix2 0 j)
def bias (a : Arr 100000 64) (b : Arr 1 64) : Arr 100000 64 := fun i => biasAt a b (i 0) (i 1)
theorem bias_apply (a : Arr 100000 64) (b : Arr 1 64) (r : Fin 100000) (j : Fin 64) :
    bias a b (ix2 r j) = biasAt a b r j := rfl

def biasReluAt (a : Arr 100000 64) (b : Arr 1 64) (r : Fin 100000) (j : Fin 64) : EReal := max (a (ix2 r j) + b (ix2 0 j)) 0
def biasRelu (a : Arr 100000 64) (b : Arr 1 64) : Arr 100000 64 := fun i => biasReluAt a b (i 0) (i 1)
theorem biasRelu_apply (a : Arr 100000 64) (b : Arr 1 64) (r : Fin 100000) (j : Fin 64) :
    biasRelu a b (ix2 r j) = biasReluAt a b r j := rfl

def member (b : IArr 100000 1) (g : Fin 128) (n : Fin 100000) : EReal :=
  if b (ix2 n 0) = BitVec.ofNat 32 g.val then 1 else 0

def sums (h : Arr 100000 64) (b : IArr 100000 1) (g : Fin 128) (k : Fin 64) : EReal :=
  ∑ n : Fin 100000, member b g n * h (ix2 n k)

def cnts (b : IArr 100000 1) (g : Fin 128) : EReal := ∑ n : Fin 100000, member b g n

def pooled (h : Arr 100000 64) (b : IArr 100000 1) (g : Fin 128) (k : Fin 64) : EReal :=
  Ideal.div (sums h b g k) (max (cnts b g) 1)

def cat (h : Arr 100000 64) (b : IArr 100000 1) (ge : Arr 128 64) (g : Fin 128) (k : Fin 128) : EReal :=
  if hk : k.val < 64 then pooled h b g ⟨k.val, hk⟩ else ge (ix2 g ⟨k.val - 64, by omega⟩)

def logits (h : Arr 100000 64) (b : IArr 100000 1) (ge : Arr 128 64) (wl : Arr 128 5) (bl : Arr 1 5) (g : Fin 128) (j : Fin 5) : EReal :=
  (∑ k : Fin 128, cat h b ge g k * wl (ix2 k j)) + bl (ix2 0 j)

def rowMax (z : Fin 5 → EReal) : EReal := (Finset.univ : Finset (Fin 5)).fold max ⊥ z

def logSoftmax (z : Fin 5 → EReal) (j : Fin 5) : EReal :=
  (z j - rowMax z) - Ideal.log (∑ j' : Fin 5, Ideal.exp (z j' - rowMax z))
def poolAt (h : Arr 100000 64) (b : IArr 100000 1) (ge : Arr 128 64) (wl : Arr 128 5) (bl : Arr 1 5) (g : Fin 128) (j : Fin 5) : EReal :=
  logSoftmax (logits h b ge wl bl g) j
def pool (h : Arr 100000 64) (b : IArr 100000 1) (ge : Arr 128 64) (wl : Arr 128 5) (bl : Arr 1 5) : Arr 128 5 :=
  fun i => poolAt h b ge wl bl (i 0) (i 1)
theorem pool_apply (h : Arr 100000 64) (b : IArr 100000 1) (ge : Arr 128 64) (wl : Arr 128 5) (bl : Arr 1 5) (g : Fin 128) (j : Fin 5) :
    pool h b ge wl bl (ix2 g j) = poolAt h b ge wl bl g j := rfl

end Cert.Spec

end
-- ==== Proof.KI.ValLin0.lean ====
import proofs.«430252_j4990751998361_2_alg».proof.Proof.KI.A0
import proofs.«430252_j4990751998361_2_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem lhs_lin0_0 (i : S10000x64.Idx) (q : dot_S10000x2_S2x64_S10000x64_1_0_0_1_n_n.contr.Idx) :
    (dot_S10000x2_S2x64_S10000x64_1_0_0_1_n_n.lhsIdx i q 0).val = (i 0).val := by
  unfold DotDims.lhsIdx
  rw [dif_neg (show ¬(0 : Fin S10000x2.rank) ∈ dot_S10000x2_S2x64_S10000x64_1_0_0_1_n_n.lhsBatch by decide), dif_pos (show (0 : Fin S10000x2.rank) ∈ dot_S10000x2_S2x64_S10000x64_1_0_0_1_n_n.lhsNonContracting by decide)]
  rfl
theorem lhs_lin0_1 (i : S10000x64.Idx) (q : dot_S10000x2_S2x64_S10000x64_1_0_0_1_n_n.contr.Idx) :
    (dot_S10000x2_S2x64_S10000x64_1_0_0_1_n_n.lhsIdx i q 1).val = (q ⟨0, by decide⟩).val :=
  dot_S10000x2_S2x64_S10000x64_1_0_0_1_n_n.lhsIdx_val_of_single rfl i q
theorem rhs_lin0_0 (i : S10000x64.Idx) (q : dot_S10000x2_S2x64_S10000x64_1_0_0_1_n_n.contr.Idx) :
    (dot_S10000x2_S2x64_S10000x64_1_0_0_1_n_n.rhsIdx i q 0).val = (q ⟨0, by decide⟩).val :=
  dot_S10000x2_S2x64_S10000x64_1_0_0_1_n_n.rhsIdx_val_of_single rfl i q
theorem rhs_lin0_1 (i : S10000x64.Idx) (q : dot_S10000x2_S2x64_S10000x64_1_0_0_1_n_n.contr.Idx) :
    (dot_S10000x2_S2x64_S10000x64_1_0_0_1_n_n.rhsIdx i q 1).val = (i 1).val := by
  unfold DotDims.rhsIdx
  rw [dif_neg (show ¬(1 : Fin S2x64.rank) ∈ dot_S10000x2_S2x64_S10000x64_1_0_0_1_n_n.rhsBatch by decide), dif_pos (show (1 : Fin S2x64.rank) ∈ dot_S10000x2_S2x64_S10000x64_1_0_0_1_n_n.rhsNonContracting by decide)]
  rfl

theorem pay0_apply (x0 : Vec Ideal S10000x2 .f32) (x1 : Vec Ideal S2x64 .f32) (r : Fin 10000) (j : Fin 64) :
    k0_pay1 (F := Ideal) x0 x1 (ix2 r j) = ∑ k : Fin 2, x0 (ix2 r k) * x1 (ix2 k j) := by
  unfold k0_pay1
  simp only [matmul]
  rw [Ideal.matmul_constant_zero_apply, ← Equiv.sum_comp (contrEquiv1 dot_S10000x2_S2x64_S10000x64_1_0_0_1_n_n 2 rfl rfl).symm]
  refine Finset.sum_congr rfl fun k _ => ?_
  have hk := contrEquiv1_symm_val dot_S10000x2_S2x64_S10000x64_1_0_0_1_n_n 2 rfl rfl k
  have el : dot_S10000x2_S2x64_S10000x64_1_0_0_1_n_n.lhsIdx (ix2 r j) ((contrEquiv1 dot_S10000x2_S2x64_S10000x64_1_0_0_1_n_n 2 rfl rfl).symm k) = ix2 r k := funext fun a => Fin.ext (by
    match a with
    | ⟨0, _⟩ => exact lhs_lin0_0 _ _
    | ⟨1, _⟩ => exact (lhs_lin0_1 _ _).trans hk)
  have er : dot_S10000x2_S2x64_S10000x64_1_0_0_1_n_n.rhsIdx (ix2 r j) ((contrEquiv1 dot_S10000x2_S2x64_S10000x64_1_0_0_1_n_n 2 rfl rfl).symm k) = ix2 k j := funext fun a => Fin.ext (by
    match a with
    | ⟨0, _⟩ => exact (rhs_lin0_0 _ _).trans hk
    | ⟨1, _⟩ => exact rhs_lin0_1 _ _)
  rw [el, er]
  rfl

theorem hz0 : (![0, 0] : Fin 2 → Nat) = fun _ => 0 := funext fun a => by fin_cases a <;> rfl

theorem idx_lin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (r : Fin 10000) (k : Fin 2) (R : Fin 100000)
    (hR : R.val = t.val * 10000 + r.val) :
    (iblk0 V c 0 t : Vec Ideal S10000x2 .f32) (ix2 r k) = (V c main_arg0 : Spec.Arr 100000 2) (ix2 R k) := by
  obtain ⟨e0, e1, -⟩ := idx_lin0 t
  unfold iblk0
  rw [View.read_apply]
  show V c main_arg0 _ = V c main_arg0 _
  congr 1
  funext a
  apply Fin.ext
  match a with
  | ⟨0, _⟩ => show win0_0.index t 0 * 10000 + 1 * r.val = R.val; rw [e0, hR]; omega
  | ⟨1, _⟩ => show win0_0.index t 1 * 2 + 1 * k.val = k.val; rw [e1]; omega

theorem iblk0_1_apply (c : Dev nD) (t : Fin cfg0.N) (k : Fin 2) (j : Fin 64) :
    (iblk0 V c 1 t : Vec Ideal S2x64 .f32) (ix2 k j) = (V c main_arg4 : Spec.Arr 2 64) (ix2 k j) := by
  obtain ⟨-, -, e2, e3, -⟩ := idx_lin0 t
  unfold iblk0
  rw [View.read_apply]
  show V c main_arg4 _ = V c main_arg4 _
  congr 1
  funext a
  apply Fin.ext
  match a with
  | ⟨0, _⟩ => show win0_1.index t 0 * 2 + 1 * k.val = k.val; rw [e2]; omega
  | ⟨1, _⟩ => show win0_1.index t 1 * 64 + 1 * j.val = j.val; rw [e3]; omega

theorem flushed0_eq (c : Dev nD) (t : Fin cfg0.N) :
    (dat0 V c).flushed 2 t = ((cfg0.win 2).blk t).view.read (Elt Ideal) (Spec.lin2 (V c main_arg0) (V c main_arg4)) := by
  show (cfg0.win 2).cut (grid0.coords t) ((dat0 V c).after 2 t) = _
  rw [after0_2]
  unfold out0_2
  rw [View.canon_unit_zero hz0]
  simp only [View.ld_unit_zero (S := S10000x2) hz0, View.ld_unit_zero (S := S2x64) hz0]
  obtain ⟨-, -, -, -, e4, e5⟩ := idx_lin0 t
  have ht : t.val < 10 := lt_of_lt_of_eq t.isLt (N_0 : cfg0.N = 10)
  refine funext fun (y : S10000x64.Idx) => ?_
  obtain ⟨r, j, rfl⟩ : ∃ (r : Fin 10000) (j : Fin 64), y = ix2 r j := ⟨y 0, y 1, eq_ix2 y⟩
  have hr : r.val < 10000 := r.isLt
  have hemb : ((cfg0.win 2).blk t).view.emb (ix2 r j) = (ix2 (⟨t.val * 10000 + r.val, by omega⟩ : Fin 100000) j : S100000x64.Idx) := by
    funext a
    apply Fin.ext
    match a with
    | ⟨0, _⟩ => show win0_2.index t 0 * 10000 + 1 * r.val = t.val * 10000 + r.val; rw [e4]; omega
    | ⟨1, _⟩ => show win0_2.index t 1 * 64 + 1 * j.val = j.val; rw [e5]; omega
  show k0_pay1 (F := Ideal) (iblk0 V c 0 t) (iblk0 V c 1 t) (ix2 r j) = Spec.lin2 (V c main_arg0) (V c main_arg4) (((cfg0.win 2).blk t).view.emb (ix2 r j))
  rw [hemb, pay0_apply, Spec.lin2_apply]
  unfold Spec.lin2At
  refine Finset.sum_congr rfl fun k _ => ?_
  rw [iblk0_0_apply V c t r k ⟨t.val * 10000 + r.val, by omega⟩ rfl, iblk0_1_apply V c t k j]

theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := idx_lin0 t
  have e4' : win0_2.index t (0 : Fin 2) = (i 0).val / 10000 := e4
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

theorem lin0_arr (c : Dev nD) : ((dat0 V c).arrAt 2 cfg0.N : Spec.Arr 100000 64) = Spec.lin2 (V c main_arg0) (V c main_arg4) :=
  (dat0 V c).arrAt_eq_of_cover 2 (Spec.lin2 (V c main_arg0) (V c main_arg4)) (fun t _ => flushed0_eq V c t) cover0

end Cert.KernelIdeal.Val

end
-- ==== Proof.KI.ValLin2.lean ====
import proofs.«430252_j4990751998361_2_alg».proof.Proof.KI.A2
import proofs.«430252_j4990751998361_2_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem lhs_lin2_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_lin2_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_lin2_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_lin2_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem pay2_apply (x0 : Vec Ideal S10000x64 .f32) (x1 : Vec Ideal S64x64 .f32) (r : Fin 10000) (j : Fin 64) :
    k2_pay1 (F := Ideal) x0 x1 (ix2 r j) = ∑ k : Fin 64, x0 (ix2 r k) * x1 (ix2 k j) := by
  unfold k2_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_lin2_0 _ _
    | ⟨1, _⟩ => exact (lhs_lin2_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_lin2_0 _ _).trans hk
    | ⟨1, _⟩ => exact rhs_lin2_1 _ _)
  rw [el, er]
  rfl

theorem hz2 : (![0, 0] : Fin 2 → Nat) = fun _ => 0 := funext fun a => by fin_cases a <;> rfl

theorem idx_lin2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem iblk2_0_apply (c : Dev nD) (t : Fin cfg2.N) (r : Fin 10000) (k : Fin 64) (R : Fin 100000)
    (hR : R.val = t.val * 10000 + r.val) :
    (iblk2 V c 0 t : Vec Ideal S10000x64 .f32) (ix2 r k) = (V c main_v45 : Spec.Arr 100000 64) (ix2 R k) := by
  obtain ⟨e0, e1, -⟩ := idx_lin2 t
  unfold iblk2
  rw [View.read_apply]
  show V c main_v45 _ = V c main_v45 _
  congr 1
  funext a
  apply Fin.ext
  match a with
  | ⟨0, _⟩ => show win2_0.index t 0 * 10000 + 1 * r.val = R.val; rw [e0, hR]; omega
  | ⟨1, _⟩ => show win2_0.index t 1 * 64 + 1 * k.val = k.val; rw [e1]; omega

theorem iblk2_1_apply (c : Dev nD) (t : Fin cfg2.N) (k : Fin 64) (j : Fin 64) :
    (iblk2 V c 1 t : Vec Ideal S64x64 .f32) (ix2 k j) = (V c main_arg6 : Spec.Arr 64 64) (ix2 k j) := by
  obtain ⟨-, -, e2, e3, -⟩ := idx_lin2 t
  unfold iblk2
  rw [View.read_apply]
  show V c main_arg6 _ = V c main_arg6 _
  congr 1
  funext a
  apply Fin.ext
  match a with
  | ⟨0, _⟩ => show win2_1.index t 0 * 64 + 1 * k.val = k.val; rw [e2]; omega
  | ⟨1, _⟩ => show win2_1.index t 1 * 64 + 1 * j.val = j.val; rw [e3]; omega

theorem flushed2_eq (c : Dev nD) (t : Fin cfg2.N) :
    (dat2 V c).flushed 2 t = ((cfg2.win 2).blk t).view.read (Elt Ideal) (Spec.lin64 (V c main_v45) (V c main_arg6)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64x64) hz2]
  obtain ⟨-, -, -, -, e4, e5⟩ := idx_lin2 t
  have ht : t.val < 10 := lt_of_lt_of_eq t.isLt (N_2 : cfg2.N = 10)
  refine funext fun (y : S10000x64.Idx) => ?_
  obtain ⟨r, j, rfl⟩ : ∃ (r : Fin 10000) (j : Fin 64), y = ix2 r j := ⟨y 0, y 1, eq_ix2 y⟩
  have hr : r.val < 10000 := r.isLt
  have hemb : ((cfg2.win 2).blk t).view.emb (ix2 r j) = (ix2 (⟨t.val * 10000 + r.val, by omega⟩ : Fin 100000) j : S100000x64.Idx) := by
    funext a
    apply Fin.ext
    match a with
    | ⟨0, _⟩ => show win2_2.index t 0 * 10000 + 1 * r.val = t.val * 10000 + r.val; rw [e4]; omega
    | ⟨1, _⟩ => show win2_2.index t 1 * 64 + 1 * j.val = j.val; rw [e5]; omega
  show k2_pay1 (F := Ideal) (iblk2 V c 0 t) (iblk2 V c 1 t) (ix2 r j) = Spec.lin64 (V c main_v45) (V c main_arg6) (((cfg2.win 2).blk t).view.emb (ix2 r j))
  rw [hemb, pay2_apply, Spec.lin64_apply]
  unfold Spec.lin64At
  refine Finset.sum_congr rfl fun k _ => ?_
  rw [iblk2_0_apply V c t r k ⟨t.val * 10000 + r.val, by omega⟩ rfl, iblk2_1_apply V c t k j]

theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, e4, e5⟩ := idx_lin2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

theorem lin2_arr (c : Dev nD) : ((dat2 V c).arrAt 2 cfg2.N : Spec.Arr 100000 64) = Spec.lin64 (V c main_v45) (V c main_arg6) :=
  (dat2 V c).arrAt_eq_of_cover 2 (Spec.lin64 (V c main_v45) (V c main_arg6)) (fun t _ => flushed2_eq V c t) cover2

end Cert.KernelIdeal.Val

end
-- ==== Proof.KI.ValLin4.lean ====
import proofs.«430252_j4990751998361_2_alg».proof.Proof.KI.A4
import proofs.«430252_j4990751998361_2_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem lhs_lin4_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_lin4_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_lin4_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_lin4_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem pay4_apply (x0 : Vec Ideal S10000x64 .f32) (x1 : Vec Ideal S64x64 .f32) (r : Fin 10000) (j : Fin 64) :
    k4_pay1 (F := Ideal) x0 x1 (ix2 r j) = ∑ k : Fin 64, x0 (ix2 r k) * x1 (ix2 k j) := by
  unfold k4_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_lin4_0 _ _
    | ⟨1, _⟩ => exact (lhs_lin4_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_lin4_0 _ _).trans hk
    | ⟨1, _⟩ => exact rhs_lin4_1 _ _)
  rw [el, er]
  rfl

theorem hz4 : (![0, 0] : Fin 2 → Nat) = fun _ => 0 := funext fun a => by fin_cases a <;> rfl

theorem idx_lin4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem iblk4_0_apply (c : Dev nD) (t : Fin cfg4.N) (r : Fin 10000) (k : Fin 64) (R : Fin 100000)
    (hR : R.val = t.val * 10000 + r.val) :
    (iblk4 V c 0 t : Vec Ideal S10000x64 .f32) (ix2 r k) = (V c main_v61 : Spec.Arr 100000 64) (ix2 R k) := by
  obtain ⟨e0, e1, -⟩ := idx_lin4 t
  unfold iblk4
  rw [View.read_apply]
  show V c main_v61 _ = V c main_v61 _
  congr 1
  funext a
  apply Fin.ext
  match a with
  | ⟨0, _⟩ => show win4_0.index t 0 * 10000 + 1 * r.val = R.val; rw [e0, hR]; omega
  | ⟨1, _⟩ => show win4_0.index t 1 * 64 + 1 * k.val = k.val; rw [e1]; omega

theorem iblk4_1_apply (c : Dev nD) (t : Fin cfg4.N) (k : Fin 64) (j : Fin 64) :
    (iblk4 V c 1 t : Vec Ideal S64x64 .f32) (ix2 k j) = (V c main_arg8 : Spec.Arr 64 64) (ix2 k j) := by
  obtain ⟨-, -, e2, e3, -⟩ := idx_lin4 t
  unfold iblk4
  rw [View.read_apply]
  show V c main_arg8 _ = V c main_arg8 _
  congr 1
  funext a
  apply Fin.ext
  match a with
  | ⟨0, _⟩ => show win4_1.index t 0 * 64 + 1 * k.val = k.val; rw [e2]; omega
  | ⟨1, _⟩ => show win4_1.index t 1 * 64 + 1 * j.val = j.val; rw [e3]; omega

theorem flushed4_eq (c : Dev nD) (t : Fin cfg4.N) :
    (dat4 V c).flushed 2 t = ((cfg4.win 2).blk t).view.read (Elt Ideal) (Spec.lin64 (V c main_v61) (V c main_arg8)) := by
  show (cfg4.win 2).cut (grid4.coords t) ((dat4 V c).after 2 t) = _
  rw [after4_2]
  unfold out4_2
  rw [View.canon_unit_zero hz4]
  simp only [View.ld_unit_zero (S := S10000x64) hz4, View.ld_unit_zero (S := S64x64) hz4]
  obtain ⟨-, -, -, -, e4, e5⟩ := idx_lin4 t
  have ht : t.val < 10 := lt_of_lt_of_eq t.isLt (N_4 : cfg4.N = 10)
  refine funext fun (y : S10000x64.Idx) => ?_
  obtain ⟨r, j, rfl⟩ : ∃ (r : Fin 10000) (j : Fin 64), y = ix2 r j := ⟨y 0, y 1, eq_ix2 y⟩
  have hr : r.val < 10000 := r.isLt
  have hemb : ((cfg4.win 2).blk t).view.emb (ix2 r j) = (ix2 (⟨t.val * 10000 + r.val, by omega⟩ : Fin 100000) j : S100000x64.Idx) := by
    funext a
    apply Fin.ext
    match a with
    | ⟨0, _⟩ => show win4_2.index t 0 * 10000 + 1 * r.val = t.val * 10000 + r.val; rw [e4]; omega
    | ⟨1, _⟩ => show win4_2.index t 1 * 64 + 1 * j.val = j.val; rw [e5]; omega
  show k4_pay1 (F := Ideal) (iblk4 V c 0 t) (iblk4 V c 1 t) (ix2 r j) = Spec.lin64 (V c main_v61) (V c main_arg8) (((cfg4.win 2).blk t).view.emb (ix2 r j))
  rw [hemb, pay4_apply, Spec.lin64_apply]
  unfold Spec.lin64At
  refine Finset.sum_congr rfl fun k _ => ?_
  rw [iblk4_0_apply V c t r k ⟨t.val * 10000 + r.val, by omega⟩ rfl, iblk4_1_apply V c t k j]

theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨-, -, -, -, e4, e5⟩ := idx_lin4 t
  have e4' : win4_2.index t (0 : Fin 2) = (i 0).val / 10000 := e4
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

theorem lin4_arr (c : Dev nD) : ((dat4 V c).arrAt 2 cfg4.N : Spec.Arr 100000 64) = Spec.lin64 (V c main_v61) (V c main_arg8) :=
  (dat4 V c).arrAt_eq_of_cover 2 (Spec.lin64 (V c main_v61) (V c main_arg8)) (fun t _ => flushed4_eq V c t) cover4

end Cert.KernelIdeal.Val

end
-- ==== Proof.KI.ValBias1.lean ====
import proofs.«430252_j4990751998361_2_alg».proof.Proof.KI.A1
import proofs.«430252_j4990751998361_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay1_at (x0 : Vec Ideal S10000x64 .f32) (x1 : Vec Ideal S1x64 .f32) (r : Fin 10000) (j : Fin 64) :
    k1_pay1 x0 x1 (ix2 r j) = max (x0 (ix2 r j) + x1 (ix2 0 j)) 0 := by
  unfold k1_pay1
  rw [maximumf_apply, addf_apply, broadcast_apply, shapeCast_self, shapeCast_self, broadcastTo_1b_ab_apply]
  exact congrArg _ Ideal.ofBits_zero_f32

theorem zero_offsets1 : (![0, 0] : Fin 2 → Nat) = fun _ => 0 := funext fun a => by fin_cases a <;> rfl

theorem val_lt1 (t : Fin cfg1.N) : t.val < 10 := lt_of_lt_of_eq t.isLt N_1

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_eq (c : Dev nD) (t : Fin cfg1.N) :
    (dat1 V c).flushed 2 t = ((cfg1.win 2).blk t).view.read (Elt Ideal) (Spec.biasRelu (V c main_v43) (V c main_v44)) := by
  show (cfg1.win 2).cut (grid1.coords t) ((dat1 V c).after 2 t) = _
  rw [after1_2]
  unfold out1_2
  rw [View.canon_unit_zero zero_offsets1]
  simp only [View.ld_unit_zero (S := S10000x64) zero_offsets1, View.ld_unit_zero (S := S1x64) zero_offsets1]
  obtain ⟨e00, e01, e10, e11, e20, e21⟩ := idx_facts1 t
  have ht := val_lt1 t
  funext y
  obtain ⟨p, q, rfl⟩ : ∃ (p : Fin 10000) (q : Fin 64), y = ix2 p q := ⟨y 0, y 1, eq_ix2 y⟩
  have hp : p.val < 10000 := p.isLt
  have hq : q.val < 64 := q.isLt

  have h2 : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  have h0 : ((cfg1.win 0).blk t).view.emb (ix2 p q) = ix2 (⟨t.val * 10000 + p.val, by omega⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  show k1_pay1 (iblk1 V c 0 t) (iblk1 V c 1 t) (ix2 p q) = Spec.biasRelu (V c main_v43) (V c main_v44) (((cfg1.win 2).blk t).view.emb (ix2 p q))
  have r0 : iblk1 V c 0 t (ix2 p q) = (V c main_v43 : Spec.Arr 100000 64) (ix2 (⟨t.val * 10000 + p.val, by omega⟩ : Fin 100000) q) :=
    congrArg (V c main_v43) h0
  have r1 : iblk1 V c 1 t (ix2 (0 : Fin 1) q) = (V c main_v44 : Spec.Arr 1 64) (ix2 (0 : Fin 1) q) :=
    congrArg (V c main_v44) h1
  rw [pay1_at, h2, Spec.biasRelu_apply, r0, r1]
  rfl

theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

theorem cover1 (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : (i 0).val / 10000 < cfg1.N := lt_of_lt_of_eq (by omega : (i 0).val / 10000 < 10) N_1.symm
  refine ⟨⟨(i 0).val / 10000, hN⟩, flush1_2 _, ?_⟩
  obtain ⟨-, -, -, -, e20, e21⟩ := idx_facts1 ⟨(i 0).val / 10000, hN⟩
  have e20' : win1_2.index ⟨(i 0).val / 10000, hN⟩ (0 : Fin 2) = (i 0).val / 10000 := e20
  rw [mem_blk1]
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

theorem bias1_arr (c : Dev nD) :
    ((dat1 V c).arrAt 2 cfg1.N : Spec.Arr 100000 64) = Spec.biasRelu (V c main_v43) (V c main_v44) :=
  (dat1 V c).arrAt_eq_of_cover 2 (Spec.biasRelu (V c main_v43) (V c main_v44)) (fun t _ => flushed1_eq V c t) cover1

end Cert.KernelIdeal.Val

end
-- ==== Proof.KI.ValBias3.lean ====
import proofs.«430252_j4990751998361_2_alg».proof.Proof.KI.A3
import proofs.«430252_j4990751998361_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay3_at (x0 : Vec Ideal S10000x64 .f32) (x1 : Vec Ideal S1x64 .f32) (r : Fin 10000) (j : Fin 64) :
    k3_pay1 x0 x1 (ix2 r j) = max (x0 (ix2 r j) + x1 (ix2 0 j)) 0 := by
  unfold k3_pay1
  rw [maximumf_apply, addf_apply, broadcast_apply, shapeCast_self, shapeCast_self, broadcastTo_1b_ab_apply]
  exact congrArg _ Ideal.ofBits_zero_f32

theorem zero_offsets3 : (![0, 0] : Fin 2 → Nat) = fun _ => 0 := funext fun a => by fin_cases a <;> rfl

theorem val_lt3 (t : Fin cfg3.N) : t.val < 10 := lt_of_lt_of_eq t.isLt N_3

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (t : Fin cfg3.N) :
    (dat3 V c).flushed 2 t = ((cfg3.win 2).blk t).view.read (Elt Ideal) (Spec.biasRelu (V c main_v59) (V c main_v60)) := by
  show (cfg3.win 2).cut (grid3.coords t) ((dat3 V c).after 2 t) = _
  rw [after3_2]
  unfold out3_2
  rw [View.canon_unit_zero zero_offsets3]
  simp only [View.ld_unit_zero (S := S10000x64) zero_offsets3, View.ld_unit_zero (S := S1x64) zero_offsets3]
  obtain ⟨e00, e01, e10, e11, e20, e21⟩ := idx_facts3 t
  have ht := val_lt3 t
  funext y
  obtain ⟨p, q, rfl⟩ : ∃ (p : Fin 10000) (q : Fin 64), y = ix2 p q := ⟨y 0, y 1, eq_ix2 y⟩
  have hp : p.val < 10000 := p.isLt
  have hq : q.val < 64 := q.isLt

  have h2 : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  have h0 : ((cfg3.win 0).blk t).view.emb (ix2 p q) = ix2 (⟨t.val * 10000 + p.val, by omega⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  show k3_pay1 (iblk3 V c 0 t) (iblk3 V c 1 t) (ix2 p q) = Spec.biasRelu (V c main_v59) (V c main_v60) (((cfg3.win 2).blk t).view.emb (ix2 p q))
  have r0 : iblk3 V c 0 t (ix2 p q) = (V c main_v59 : Spec.Arr 100000 64) (ix2 (⟨t.val * 10000 + p.val, by omega⟩ : Fin 100000) q) :=
    congrArg (V c main_v59) h0
  have r1 : iblk3 V c 1 t (ix2 (0 : Fin 1) q) = (V c main_v60 : Spec.Arr 1 64) (ix2 (0 : Fin 1) q) :=
    congrArg (V c main_v60) h1
  rw [pay3_at, h2, Spec.biasRelu_apply, r0, r1]
  rfl

theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

theorem cover3 (i : S100000x64.Idx) :
    ∃ t : Fin cfg3.N, (cfg3.win 2).flush t = true ∧ i ∈ ((cfg3.win 2).blk t).view.set := by
  have hi0 : (i 0).val < 100000 := idx2_lt0 i
  have hi1 : (i 1).val < 64 := idx2_lt1 i
  have hN : (i 0).val / 10000 < cfg3.N := lt_of_lt_of_eq (by omega : (i 0).val / 10000 < 10) N_3.symm
  refine ⟨⟨(i 0).val / 10000, hN⟩, flush3_2 _, ?_⟩
  obtain ⟨-, -, -, -, e20, e21⟩ := idx_facts3 ⟨(i 0).val / 10000, hN⟩
  have e20' : win3_2.index ⟨(i 0).val / 10000, hN⟩ (0 : Fin 2) = (i 0).val / 10000 := e20
  rw [mem_blk3]
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 64 ≤ (i 1).val ∧ (i 1).val < win3_2.index ⟨(i 0).val / 10000, hN⟩ (1 : Fin 2) * 64 + 64; omega

theorem bias3_arr (c : Dev nD) :
    ((dat3 V c).arrAt 2 cfg3.N : Spec.Arr 100000 64) = Spec.biasRelu (V c main_v59) (V c main_v60) :=
  (dat3 V c).arrAt_eq_of_cover 2 (Spec.biasRelu (V c main_v59) (V c main_v60)) (fun t _ => flushed3_eq V c t) cover3

end Cert.KernelIdeal.Val

end
-- ==== Proof.KI.ValBias5.lean ====
import proofs.«430252_j4990751998361_2_alg».proof.Proof.KI.A5
import proofs.«430252_j4990751998361_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay5_at (x0 : Vec Ideal S10000x64 .f32) (x1 : Vec Ideal S1x64 .f32) (r : Fin 10000) (j : Fin 64) :
    k5_pay1 x0 x1 (ix2 r j) = x0 (ix2 r j) + x1 (ix2 0 j) := by
  unfold k5_pay1
  rw [addf_apply, shapeCast_self, shapeCast_self, broadcastTo_1b_ab_apply]

theorem zero_offsets5 : (![0, 0] : Fin 2 → Nat) = fun _ => 0 := funext fun a => by fin_cases a <;> rfl

theorem val_lt5 (t : Fin cfg5.N) : t.val < 10 := lt_of_lt_of_eq t.isLt N_5

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed5_eq (c : Dev nD) (t : Fin cfg5.N) :
    (dat5 V c).flushed 2 t = ((cfg5.win 2).blk t).view.read (Elt Ideal) (Spec.bias (V c main_v75) (V c main_v76)) := by
  show (cfg5.win 2).cut (grid5.coords t) ((dat5 V c).after 2 t) = _
  rw [after5_2]
  unfold out5_2
  rw [View.canon_unit_zero zero_offsets5]
  simp only [View.ld_unit_zero (S := S10000x64) zero_offsets5, View.ld_unit_zero (S := S1x64) zero_offsets5]
  obtain ⟨e00, e01, e10, e11, e20, e21⟩ := idx_facts5 t
  have ht := val_lt5 t
  funext y
  obtain ⟨p, q, rfl⟩ : ∃ (p : Fin 10000) (q : Fin 64), y = ix2 p q := ⟨y 0, y 1, eq_ix2 y⟩
  have hp : p.val < 10000 := p.isLt
  have hq : q.val < 64 := q.isLt

  have h2 : ((cfg5.win 2).blk t).view.emb (ix2 p q) = ix2 (⟨t.val * 10000 + p.val, by omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  have h0 : ((cfg5.win 0).blk t).view.emb (ix2 p q) = ix2 (⟨t.val * 10000 + p.val, by omega⟩ : Fin 100000) q := by
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 64 + 1 * q.val = q.val; omega
  show k5_pay1 (iblk5 V c 0 t) (iblk5 V c 1 t) (ix2 p q) = Spec.bias (V c main_v75) (V c main_v76) (((cfg5.win 2).blk t).view.emb (ix2 p q))
  have r0 : iblk5 V c 0 t (ix2 p q) = (V c main_v75 : Spec.Arr 100000 64) (ix2 (⟨t.val * 10000 + p.val, by omega⟩ : Fin 100000) q) :=
    congrArg (V c main_v75) h0
  have r1 : iblk5 V c 1 t (ix2 (0 : Fin 1) q) = (V c main_v76 : Spec.Arr 1 64) (ix2 (0 : Fin 1) q) :=
    congrArg (V c main_v76) h1
  rw [pay5_at, h2, Spec.bias_apply, r0, r1]
  rfl

theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

theorem cover5 (i : S100000x64.Idx) :
    ∃ t : Fin cfg5.N, (cfg5.win 2).flush t = true ∧ i ∈ ((cfg5.win 2).blk t).view.set := by
  have hi0 : (i 0).val < 100000 := idx2_lt0 i
  have hi1 : (i 1).val < 64 := idx2_lt1 i
  have hN : (i 0).val / 10000 < cfg5.N := lt_of_lt_of_eq (by omega : (i 0).val / 10000 < 10) N_5.symm
  refine ⟨⟨(i 0).val / 10000, hN⟩, flush5_2 _, ?_⟩
  obtain ⟨-, -, -, -, e20, e21⟩ := idx_facts5 ⟨(i 0).val / 10000, hN⟩
  have e20' : win5_2.index ⟨(i 0).val / 10000, hN⟩ (0 : Fin 2) = (i 0).val / 10000 := e20
  rw [mem_blk5]
  intro a
  match a with
  | ⟨0, _⟩ => show win5_2.index ⟨(i 0).val / 10000, hN⟩ (0 : Fin 2) * 10000 ≤ (i 0).val ∧ (i 0).val < win5_2.index ⟨(i 0).val / 10000, hN⟩ (0 : Fin 2) * 10000 + 10000; omega
  | ⟨1, _⟩ => show win5_2.index ⟨(i 0).val / 10000, hN⟩ (1 : Fin 2) * 64 ≤ (i 1).val ∧ (i 1).val < win5_2.index ⟨(i 0).val / 10000, hN⟩ (1 : Fin 2) * 64 + 64; omega

theorem bias5_arr (c : Dev nD) :
    ((dat5 V c).arrAt 2 cfg5.N : Spec.Arr 100000 64) = Spec.bias (V c main_v75) (V c main_v76) :=
  (dat5 V c).arrAt_eq_of_cover 2 (Spec.bias (V c main_v75) (V c main_v76)) (fun t _ => flushed5_eq V c t) cover5

end Cert.KernelIdeal.Val

end
-- ==== Proof.KI.ValPoolPay.lean ====
import proofs.«430252_j4990751998361_2_alg».proof.Proof.Gen.KernelIdeal.Skeleton
import proofs.«430252_j4990751998361_2_alg».proof.Proof.Spec
import Idealize.ShloMosaic.PureOps.Ideal.Laws
import Idealize.ShloMosaic.Lib.ValueIdx
import Idealize.ShloMosaic.Lib.ValueLayout
import Idealize.ShloMosaic.Lib.IdealHost

noncomputable section

namespace Cert.KernelIdeal.Val

open Cert.KernelIdeal Cert.KernelIdeal.Gen Cert.Spec
open Idealize.ShloMosaic Idealize.ShloMosaic.ValueIdx
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem cmpi_at {s : Shape} {w : ℕ} (p : CmpIPredicate) (x y : IVec s w) (i : s.Idx) :
    cmpi p x y i = IntOp.cmpi p (x i) (y i) := rfl

def hot (b : Vec Ideal S10000x1 .i32) (g : Fin 128) (r : Fin 10000) : EReal :=
  if b (ix2 r 0) = BitVec.ofNat 32 g.val then 1 else 0

theorem k6_pay1_apply (g : Fin 128) (k : Fin 64) : k6_pay1 (F := Ideal) (ix2 g k) = 0 := by
  unfold k6_pay1
  rw [shapeCast_self]
  exact Ideal.ofBits_zero_f32

theorem k6_pay2_apply (g : Fin 128) : k6_pay2 (F := Ideal) (ix2 g 0) = 0 := by
  unfold k6_pay2
  rw [shapeCast_self]
  exact Ideal.ofBits_zero_f32

theorem sitofp_extui_cmpi_eq (x y : BitVec 32) :
    (((IntOp.cmpi .eq x y).setWidth 32).toInt : ℝ) = if x = y then 1 else 0 := by
  unfold IntOp.cmpi
  by_cases h : x = y
  · subst h; simp
  · have hb : (x == y) = false := by simpa using h
    simp [h, hb]

theorem k6_pay3_apply (b : Vec Ideal S10000x1 .i32) (g : Fin 128) (r : Fin 10000) :
    k6_pay3 (F := Ideal) b (ix2 g r) = hot b g r := by
  unfold k6_pay3
  dsimp only
  rw [transpose_ix2_apply]
  rw [truncf_apply, sitofp_apply, extui_apply, cmpi_at, broadcastTo_a1_ab_apply, broadcastTo_1b_ab_apply,
    shapeCast_self, iota_single_apply]
  show (((((IntOp.cmpi .eq (b (ix2 r 0)) (BitVec.ofNat 32 g.val)).setWidth 32).toInt : ℝ)) : EReal) = hot b g r
  rw [sitofp_extui_cmpi_eq]
  unfold hot
  split <;> simp

theorem lhs4_0 (i : S128x64.Idx) (q : dot_S128x10000_S10000x64_S128x64_1_0_0_1_n_n.contr.Idx) :
    (dot_S128x10000_S10000x64_S128x64_1_0_0_1_n_n.lhsIdx i q 0).val = (i 0).val := by
  unfold DotDims.lhsIdx
  rw [dif_neg (show ¬(0 : Fin S128x10000.rank) ∈ dot_S128x10000_S10000x64_S128x64_1_0_0_1_n_n.lhsBatch by decide), dif_pos (show (0 : Fin S128x10000.rank) ∈ dot_S128x10000_S10000x64_S128x64_1_0_0_1_n_n.lhsNonContracting by decide)]
  rfl
theorem lhs4_1 (i : S128x64.Idx) (q : dot_S128x10000_S10000x64_S128x64_1_0_0_1_n_n.contr.Idx) :
    (dot_S128x10000_S10000x64_S128x64_1_0_0_1_n_n.lhsIdx i q 1).val = (q ⟨0, by decide⟩).val :=
  dot_S128x10000_S10000x64_S128x64_1_0_0_1_n_n.lhsIdx_val_of_single rfl i q
theorem rhs4_0 (i : S128x64.Idx) (q : dot_S128x10000_S10000x64_S128x64_1_0_0_1_n_n.contr.Idx) :
    (dot_S128x10000_S10000x64_S128x64_1_0_0_1_n_n.rhsIdx i q 0).val = (q ⟨0, by decide⟩).val :=
  dot_S128x10000_S10000x64_S128x64_1_0_0_1_n_n.rhsIdx_val_of_single rfl i q
theorem rhs4_1 (i : S128x64.Idx) (q : dot_S128x10000_S10000x64_S128x64_1_0_0_1_n_n.contr.Idx) :
    (dot_S128x10000_S10000x64_S128x64_1_0_0_1_n_n.rhsIdx i q 1).val = (i 1).val := by
  unfold DotDims.rhsIdx
  rw [dif_neg (show ¬(1 : Fin S10000x64.rank) ∈ dot_S128x10000_S10000x64_S128x64_1_0_0_1_n_n.rhsBatch by decide), dif_pos (show (1 : Fin S10000x64.rank) ∈ dot_S128x10000_S10000x64_S128x64_1_0_0_1_n_n.rhsNonContracting by decide)]
  rfl

theorem matmul4_apply {φ₁ φ₂ : FTy} (A : FVec Ideal S128x10000 φ₁) (B : FVec Ideal S10000x64 φ₂) (p : Fin 128) (c : Fin 64) :
    matmul dot_S128x10000_S10000x64_S128x64_1_0_0_1_n_n none A B (constant (F := Ideal) S128x64 .f32 0x00000000#32) (ix2 p c)
      = ∑ r : Fin 10000, A (ix2 p r) * B (ix2 r c) := by
  simp only [matmul]
  rw [Ideal.matmul_constant_zero_apply, ← Equiv.sum_comp (contrEquiv1 dot_S128x10000_S10000x64_S128x64_1_0_0_1_n_n 10000 rfl rfl).symm]
  refine Finset.sum_congr rfl fun r _ => ?_
  have hk := contrEquiv1_symm_val dot_S128x10000_S10000x64_S128x64_1_0_0_1_n_n 10000 rfl rfl r
  have el : dot_S128x10000_S10000x64_S128x64_1_0_0_1_n_n.lhsIdx (ix2 p c) ((contrEquiv1 dot_S128x10000_S10000x64_S128x64_1_0_0_1_n_n 10000 rfl rfl).symm r) = ix2 p r := funext fun a => Fin.ext (by
    match a with
    | ⟨0, _⟩ => exact lhs4_0 _ _
    | ⟨1, _⟩ => exact (lhs4_1 _ _).trans hk)
  have er : dot_S128x10000_S10000x64_S128x64_1_0_0_1_n_n.rhsIdx (ix2 p c) ((contrEquiv1 dot_S128x10000_S10000x64_S128x64_1_0_0_1_n_n 10000 rfl rfl).symm r) = ix2 r c := funext fun a => Fin.ext (by
    match a with
    | ⟨0, _⟩ => exact (rhs4_0 _ _).trans hk
    | ⟨1, _⟩ => exact rhs4_1 _ _)
  rw [el, er]

theorem lhs5_0 (i : S128x1.Idx) (q : dot_S128x10000_S10000x1_S128x1_1_0_0_1_n_n.contr.Idx) :
    (dot_S128x10000_S10000x1_S128x1_1_0_0_1_n_n.lhsIdx i q 0).val = (i 0).val := by
  unfold DotDims.lhsIdx
  rw [dif_neg (show ¬(0 : Fin S128x10000.rank) ∈ dot_S128x10000_S10000x1_S128x1_1_0_0_1_n_n.lhsBatch by decide), dif_pos (show (0 : Fin S128x10000.rank) ∈ dot_S128x10000_S10000x1_S128x1_1_0_0_1_n_n.lhsNonContracting by decide)]
  rfl
theorem lhs5_1 (i : S128x1.Idx) (q : dot_S128x10000_S10000x1_S128x1_1_0_0_1_n_n.contr.Idx) :
    (dot_S128x10000_S10000x1_S128x1_1_0_0_1_n_n.lhsIdx i q 1).val = (q ⟨0, by decide⟩).val :=
  dot_S128x10000_S10000x1_S128x1_1_0_0_1_n_n.lhsIdx_val_of_single rfl i q
theorem rhs5_0 (i : S128x1.Idx) (q : dot_S128x10000_S10000x1_S128x1_1_0_0_1_n_n.contr.Idx) :
    (dot_S128x10000_S10000x1_S128x1_1_0_0_1_n_n.rhsIdx i q 0).val = (q ⟨0, by decide⟩).val :=
  dot_S128x10000_S10000x1_S128x1_1_0_0_1_n_n.rhsIdx_val_of_single rfl i q
theorem rhs5_1 (i : S128x1.Idx) (q : dot_S128x10000_S10000x1_S128x1_1_0_0_1_n_n.contr.Idx) :
    (dot_S128x10000_S10000x1_S128x1_1_0_0_1_n_n.rhsIdx i q 1).val = (i 1).val := by
  unfold DotDims.rhsIdx
  rw [dif_neg (show ¬(1 : Fin S10000x1.rank) ∈ dot_S128x10000_S10000x1_S128x1_1_0_0_1_n_n.rhsBatch by decide), dif_pos (show (1 : Fin S10000x1.rank) ∈ dot_S128x10000_S10000x1_S128x1_1_0_0_1_n_n.rhsNonContracting by decide)]
  rfl

theorem matmul5_apply {φ₁ φ₂ : FTy} (A : FVec Ideal S128x10000 φ₁) (B : FVec Ideal S10000x1 φ₂) (p : Fin 128) (c : Fin 1) :
    matmul dot_S128x10000_S10000x1_S128x1_1_0_0_1_n_n none A B (constant (F := Ideal) S128x1 .f32 0x00000000#32) (ix2 p c)
      = ∑ r : Fin 10000, A (ix2 p r) * B (ix2 r c) := by
  simp only [matmul]
  rw [Ideal.matmul_constant_zero_apply, ← Equiv.sum_comp (contrEquiv1 dot_S128x10000_S10000x1_S128x1_1_0_0_1_n_n 10000 rfl rfl).symm]
  refine Finset.sum_congr rfl fun r _ => ?_
  have hk := contrEquiv1_symm_val dot_S128x10000_S10000x1_S128x1_1_0_0_1_n_n 10000 rfl rfl r
  have el : dot_S128x10000_S10000x1_S128x1_1_0_0_1_n_n.lhsIdx (ix2 p c) ((contrEquiv1 dot_S128x10000_S10000x1_S128x1_1_0_0_1_n_n 10000 rfl rfl).symm r) = ix2 p r := funext fun a => Fin.ext (by
    match a with
    | ⟨0, _⟩ => exact lhs5_0 _ _
    | ⟨1, _⟩ => exact (lhs5_1 _ _).trans hk)
  have er : dot_S128x10000_S10000x1_S128x1_1_0_0_1_n_n.rhsIdx (ix2 p c) ((contrEquiv1 dot_S128x10000_S10000x1_S128x1_1_0_0_1_n_n 10000 rfl rfl).symm r) = ix2 r c := funext fun a => Fin.ext (by
    match a with
    | ⟨0, _⟩ => exact (rhs5_0 _ _).trans hk
    | ⟨1, _⟩ => exact rhs5_1 _ _)
  rw [el, er]

theorem lhs6_0 (i : S128x5.Idx) (q : dot_S128x128_S128x5_S128x5_1_0_0_1_n_n.contr.Idx) :
    (dot_S128x128_S128x5_S128x5_1_0_0_1_n_n.lhsIdx i q 0).val = (i 0).val := by
  unfold DotDims.lhsIdx
  rw [dif_neg (show ¬(0 : Fin S128x128.rank) ∈ dot_S128x128_S128x5_S128x5_1_0_0_1_n_n.lhsBatch by decide), dif_pos (show (0 : Fin S128x128.rank) ∈ dot_S128x128_S128x5_S128x5_1_0_0_1_n_n.lhsNonContracting by decide)]
  rfl
theorem lhs6_1 (i : S128x5.Idx) (q : dot_S128x128_S128x5_S128x5_1_0_0_1_n_n.contr.Idx) :
    (dot_S128x128_S128x5_S128x5_1_0_0_1_n_n.lhsIdx i q 1).val = (q ⟨0, by decide⟩).val :=
  dot_S128x128_S128x5_S128x5_1_0_0_1_n_n.lhsIdx_val_of_single rfl i q
theorem rhs6_0 (i : S128x5.Idx) (q : dot_S128x128_S128x5_S128x5_1_0_0_1_n_n.contr.Idx) :
    (dot_S128x128_S128x5_S128x5_1_0_0_1_n_n.rhsIdx i q 0).val = (q ⟨0, by decide⟩).val :=
  dot_S128x128_S128x5_S128x5_1_0_0_1_n_n.rhsIdx_val_of_single rfl i q
theorem rhs6_1 (i : S128x5.Idx) (q : dot_S128x128_S128x5_S128x5_1_0_0_1_n_n.contr.Idx) :
    (dot_S128x128_S128x5_S128x5_1_0_0_1_n_n.rhsIdx i q 1).val = (i 1).val := by
  unfold DotDims.rhsIdx
  rw [dif_neg (show ¬(1 : Fin S128x5.rank) ∈ dot_S128x128_S128x5_S128x5_1_0_0_1_n_n.rhsBatch by decide), dif_pos (show (1 : Fin S128x5.rank) ∈ dot_S128x128_S128x5_S128x5_1_0_0_1_n_n.rhsNonContracting by decide)]
  rfl

theorem matmul6_apply {φ₁ φ₂ : FTy} (A : FVec Ideal S128x128 φ₁) (B : FVec Ideal S128x5 φ₂) (p : Fin 128) (c : Fin 5) :
    matmul dot_S128x128_S128x5_S128x5_1_0_0_1_n_n none A B (constant (F := Ideal) S128x5 .f32 0x00000000#32) (ix2 p c)
      = ∑ r : Fin 128, A (ix2 p r) * B (ix2 r c) := by
  simp only [matmul]
  rw [Ideal.matmul_constant_zero_apply, ← Equiv.sum_comp (contrEquiv1 dot_S128x128_S128x5_S128x5_1_0_0_1_n_n 128 rfl rfl).symm]
  refine Finset.sum_congr rfl fun r _ => ?_
  have hk := contrEquiv1_symm_val dot_S128x128_S128x5_S128x5_1_0_0_1_n_n 128 rfl rfl r
  have el : dot_S128x128_S128x5_S128x5_1_0_0_1_n_n.lhsIdx (ix2 p c) ((contrEquiv1 dot_S128x128_S128x5_S128x5_1_0_0_1_n_n 128 rfl rfl).symm r) = ix2 p r := funext fun a => Fin.ext (by
    match a with
    | ⟨0, _⟩ => exact lhs6_0 _ _
    | ⟨1, _⟩ => exact (lhs6_1 _ _).trans hk)
  have er : dot_S128x128_S128x5_S128x5_1_0_0_1_n_n.rhsIdx (ix2 p c) ((contrEquiv1 dot_S128x128_S128x5_S128x5_1_0_0_1_n_n 128 rfl rfl).symm r) = ix2 r c := funext fun a => Fin.ext (by
    match a with
    | ⟨0, _⟩ => exact (rhs6_0 _ _).trans hk
    | ⟨1, _⟩ => exact rhs6_1 _ _)
  rw [el, er]

theorem k6_pay4_apply (h : Vec Ideal S10000x64 .f32) (b : Vec Ideal S10000x1 .i32) (s : Vec Ideal S128x64 .f32)
    (g : Fin 128) (k : Fin 64) :
    k6_pay4 (F := Ideal) h b s (ix2 g k) = s (ix2 g k) + ∑ r : Fin 10000, hot b g r * h (ix2 r k) := by
  unfold k6_pay4
  rw [shapeCast_self, addf_apply, matmul4_apply]
  refine congrArg (s (ix2 g k) + ·) (Finset.sum_congr rfl fun r _ => ?_)
  rw [k6_pay3_apply, truncf_apply, shapeCast_self]

theorem k6_pay5_apply (b : Vec Ideal S10000x1 .i32) (cn : Vec Ideal S128x1 .f32) (g : Fin 128) :
    k6_pay5 (F := Ideal) b cn (ix2 g 0) = cn (ix2 g 0) + ∑ r : Fin 10000, hot b g r := by
  unfold k6_pay5
  rw [shapeCast_self, addf_apply, matmul5_apply]
  refine congrArg (cn (ix2 g 0) + ·) (Finset.sum_congr rfl fun r _ => ?_)
  rw [k6_pay3_apply, broadcast_apply]
  show hot b g r * Ideal.ofBits .bf16 0x3F80#16 = hot b g r
  rw [Ideal.ofBits_one_bf16, mul_one]

theorem concat_at {α : Type} (x₁ x₂ : S128x64.Idx → α) (g : Fin 128) (k : Fin 128) :
    concatenate S128x128 1 [⟨S128x64, x₁⟩, ⟨S128x64, x₂⟩] concatenates_S128x64_S128x64_S128x128_d1 (ix2 g k)
      = if hk : k.val < 64 then x₁ (ix2 g ⟨k.val, hk⟩) else x₂ (ix2 g ⟨k.val - 64, by omega⟩) := by
  by_cases hk : k.val < 64
  · rw [dif_pos hk]
    exact concatenate_pair_apply_left 1 x₁ x₂ _ (ix2 g k) rfl (ix2 g ⟨k.val, hk⟩)
      (fun b => match b with | ⟨0, _⟩ => rfl | ⟨1, _⟩ => rfl)
  · rw [dif_neg hk]
    refine concatenate_pair_apply_right 1 x₁ x₂ _ (ix2 g k) rfl rfl (ix2 g ⟨k.val - 64, by omega⟩) ?_ ?_
    · intro b hb
      match b, hb with
      | ⟨0, _⟩, _ => rfl
      | ⟨1, _⟩, hb => exact absurd rfl hb
    · show k.val - 64 + 64 = k.val
      omega

theorem exp_at {s : Shape} {φ : FTy} (x : FVec Ideal s φ) (i : s.Idx) : exp x i = Ideal.exp (x i) := rfl
theorem log_at {s : Shape} {φ : FTy} (x : FVec Ideal s φ) (i : s.Idx) : log x i = Ideal.log (x i) := rfl

theorem rowMax_at (z : FVec Ideal S128x5 .f32) (g : Fin 128) (u : Fin 1) :
    shapeCast S128x1 (multiReduction (F := Ideal) .maximumf [1] S128 z 0xFF800000#32 reduces_S128x5_S128 (.inl rfl) rfl)
        shapeCasts_S128_S128x1 (ix2 g u)
      = (Finset.univ : Finset (Fin 5)).fold max ⊥ (fun j' => z (ix2 g j')) := by
  rw [shapeCast_a_a1_apply]
  refine (Ideal.multiReduction_maximumf_single z 0xFF800000#32 reduces_S128x5_S128 (.inl rfl) rfl (ix1 g)).trans ?_
  show (Finset.univ : Finset (Fin 5)).fold max (Ideal.ofBits .f32 0xFF800000#32)
      (fun j' => z ((reduces_S128x5_S128).lift (ix1 g) j')) = _
  rw [show Ideal.ofBits .f32 0xFF800000#32 = (⊥ : EReal) by simp [Ideal.ofBits, Ideal.ieee]]
  refine congrArg (fun f => Finset.fold max ⊥ f Finset.univ) (funext fun j' => ?_)
  refine congrArg z (funext fun a => Fin.ext ?_)
  match a with
  | ⟨0, _⟩ => rfl
  | ⟨1, _⟩ => rfl

theorem rowSum_at (e : FVec Ideal S128x5 .f32) (g : Fin 128) (u : Fin 1) :
    shapeCast S128x1 (multiReduction (F := Ideal) .add [1] S128 e 0x00000000#32 reduces_S128x5_S128 (.inl rfl) rfl)
        shapeCasts_S128_S128x1 (ix2 g u)
      = ∑ j' : Fin 5, e (ix2 g j') := by
  rw [shapeCast_a_a1_apply]
  refine (Ideal.multiReduction_add_single e 0x00000000#32 reduces_S128x5_S128 (.inl rfl) rfl (ix1 g)).trans ?_
  show ∑ j' : Fin 5, e ((reduces_S128x5_S128).lift (ix1 g) j') = _
  refine Finset.sum_congr rfl fun j' _ => congrArg e (funext fun a => Fin.ext ?_)
  match a with
  | ⟨0, _⟩ => rfl
  | ⟨1, _⟩ => rfl

def headPre (s : Vec Ideal S128x64 .f32) (cn : Vec Ideal S128x1 .f32) (ge : Vec Ideal S128x64 .f32)
    (wl : Vec Ideal S128x5 .f32) (bl : Vec Ideal S1x5 .f32) : FVec Ideal S128x5 .f32 :=
  addf
    (matmul dot_S128x128_S128x5_S128x5_1_0_0_1_n_n none
      (truncf .bf16
        (concatenate S128x128 1
          [⟨S128x64, divf s (broadcastTo S128x64 (maximumf cn (broadcast S128x1 (Scalar.ofBits .f32 0x3F800000#32)))
              broadcasts_S128x1_S128x64)⟩, ⟨S128x64, ge⟩]
          concatenates_S128x64_S128x64_S128x128_d1) bitsLt_bf16_f32)
      (truncf .bf16 wl bitsLt_bf16_f32) (constant S128x5 .f32 0x00000000#32))
    (broadcastTo S128x5 (shapeCast S1x5 bl shapeCasts_S1x5_S1x5) broadcasts_S1x5_S128x5)

def softTail (z : FVec Ideal S128x5 .f32) : FVec Ideal S128x5 .f32 :=
  have v48 : FVec Ideal S128 .f32 := multiReduction .maximumf [1] S128 z 0xFF800000#32 reduces_S128x5_S128 (.inl rfl) rfl
  have v49 : FVec Ideal S128x1 .f32 := shapeCast S128x1 v48 shapeCasts_S128_S128x1
  have v50 : FVec Ideal S128x5 .f32 := broadcastTo S128x5 v49 broadcasts_S128x1_S128x5
  have v52 : FVec Ideal S128x5 .f32 := exp (subf z v50)
  have v53 : FVec Ideal S128 .f32 := multiReduction .add [1] S128 v52 0x00000000#32 reduces_S128x5_S128 (.inl rfl) rfl
  have v54 : FVec Ideal S128x1 .f32 := shapeCast S128x1 v53 shapeCasts_S128_S128x1
  have v58 : FVec Ideal S128x5 .f32 := broadcastTo S128x5 (log v54) broadcasts_S128x1_S128x5
  subf (subf z v50) v58

theorem k6_pay6_eq (s : Vec Ideal S128x64 .f32) (cn : Vec Ideal S128x1 .f32) (ge : Vec Ideal S128x64 .f32)
    (wl : Vec Ideal S128x5 .f32) (bl : Vec Ideal S1x5 .f32) :
    k6_pay6 (F := Ideal) s cn ge wl bl = softTail (headPre s cn ge wl bl) := rfl

theorem softTail_apply (z : FVec Ideal S128x5 .f32) (g : Fin 128) (j : Fin 5) :
    softTail z (ix2 g j)
      = (z (ix2 g j) - (Finset.univ : Finset (Fin 5)).fold max ⊥ (fun j' => z (ix2 g j')))
        - Ideal.log (∑ j' : Fin 5, Ideal.exp (z (ix2 g j')
            - (Finset.univ : Finset (Fin 5)).fold max ⊥ (fun j' => z (ix2 g j')))) := by
  unfold softTail
  rw [subf_apply, subf_apply, broadcastTo_a1_ab_apply, broadcastTo_a1_ab_apply, rowMax_at, log_at, rowSum_at]
  refine congrArg (fun t => _ - Ideal.log t) (Finset.sum_congr rfl fun j' _ => ?_)
  rw [exp_at, subf_apply, broadcastTo_a1_ab_apply, rowMax_at]

def headLogits (s : Vec Ideal S128x64 .f32) (cn : Vec Ideal S128x1 .f32) (ge : Vec Ideal S128x64 .f32)
    (wl : Vec Ideal S128x5 .f32) (bl : Vec Ideal S1x5 .f32) (g : Fin 128) (j' : Fin 5) : EReal :=
  (∑ k : Fin 128, (if hk : k.val < 64 then Ideal.div (s (ix2 g ⟨k.val, hk⟩)) (max (cn (ix2 g 0)) 1)
      else ge (ix2 g ⟨k.val - 64, by omega⟩)) * wl (ix2 k j')) + bl (ix2 0 j')

theorem headPre_apply (s : Vec Ideal S128x64 .f32) (cn : Vec Ideal S128x1 .f32) (ge : Vec Ideal S128x64 .f32)
    (wl : Vec Ideal S128x5 .f32) (bl : Vec Ideal S1x5 .f32) (g : Fin 128) (j' : Fin 5) :
    headPre s cn ge wl bl (ix2 g j') = headLogits s cn ge wl bl g j' := by
  unfold headPre headLogits
  rw [addf_apply, matmul6_apply, broadcastTo_1b_ab_apply, shapeCast_self]
  refine congrArg (· + bl (ix2 0 j')) (Finset.sum_congr rfl fun k _ => ?_)
  rw [truncf_apply, truncf_apply, concat_at]
  congr 1
  by_cases hk : k.val < 64
  · rw [dif_pos hk, dif_pos hk, divf_apply, broadcastTo_a1_ab_apply, maximumf_apply, broadcast_apply]
    show Ideal.div _ (max _ (Ideal.ofBits .f32 0x3F800000#32)) = _
    rw [Ideal.ofBits_one_f32]
  · rw [dif_neg hk, dif_neg hk]

theorem k6_pay6_apply_raw (s : Vec Ideal S128x64 .f32) (cn : Vec Ideal S128x1 .f32) (ge : Vec Ideal S128x64 .f32)
    (wl : Vec Ideal S128x5 .f32) (bl : Vec Ideal S1x5 .f32) (g : Fin 128) (j : Fin 5) :
    k6_pay6 (F := Ideal) s cn ge wl bl (ix2 g j)
      = (headLogits s cn ge wl bl g j - (Finset.univ : Finset (Fin 5)).fold max ⊥ (headLogits s cn ge wl bl g))
        - Ideal.log (∑ j' : Fin 5, Ideal.exp (headLogits s cn ge wl bl g j'
            - (Finset.univ : Finset (Fin 5)).fold max ⊥ (headLogits s cn ge wl bl g))) := by
  rw [k6_pay6_eq, softTail_apply]
  simp only [headPre_apply]

theorem k6_pay6_apply (s : Vec Ideal S128x64 .f32) (cn : Vec Ideal S128x1 .f32) (ge : Vec Ideal S128x64 .f32)
    (wl : Vec Ideal S128x5 .f32) (bl : Vec Ideal S1x5 .f32) (g : Fin 128) (j : Fin 5) :
    k6_pay6 (F := Ideal) s cn ge wl bl (ix2 g j)
      = Spec.logSoftmax (fun j' => (∑ k : Fin 128, (if hk : k.val < 64 then Ideal.div (s (ix2 g ⟨k.val, hk⟩)) (max (cn (ix2 g 0)) 1)
          else ge (ix2 g ⟨k.val - 64, by omega⟩)) * wl (ix2 k j')) + bl (ix2 0 j')) j := by
  rw [k6_pay6_apply_raw]
  rfl

end Cert.KernelIdeal.Val

end
-- ==== Proof.KI.ValPool.lean ====
import proofs.«430252_j4990751998361_2_alg».proof.Proof.KI.R6
import proofs.«430252_j4990751998361_2_alg».proof.Proof.Spec
import proofs.«430252_j4990751998361_2_alg».proof.Proof.KI.ValPoolPay
import Idealize.ShloMosaic.PureOps.Ideal
import Idealize.ShloMosaic.Lib.ValueIdx
import Idealize.ShloMosaic.Lib.Pipeline.Value
import Mathlib.Algebra.BigOperators.Group.Finset.Basic
import Mathlib.Data.Fintype.BigOperators

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem N6 : cfg6.N = 10 := N_6

theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

theorem iblk6_0_apply (c : Dev nD) (t : Fin cfg6.N) (r : Fin 10000) (k : Fin 64) (hr : t.val * 10000 + r.val < 100000) :
    iblk6 V c 0 t (ix2 r k) = (V c main_v77 : Spec.Arr 100000 64) (ix2 ⟨t.val * 10000 + r.val, hr⟩ k) := by
  obtain ⟨e0, e1, -⟩ := idx_facts6 t
  show V c main_v77 (((cfg6.win 0).blk t).view.emb (ix2 r k)) = _
  congr 1
  funext a; apply Fin.ext
  match a with
  | ⟨0, _⟩ => show win6_0.index t (0 : Fin 2) * 10000 + 1 * r.val = t.val * 10000 + r.val; omega
  | ⟨1, _⟩ => show win6_0.index t (1 : Fin 2) * 64 + 1 * k.val = k.val; omega

theorem iblk6_1_apply (c : Dev nD) (t : Fin cfg6.N) (r : Fin 10000) (hr : t.val * 10000 + r.val < 100000) :
    iblk6 V c 1 t (ix2 r 0) = (V c main_v78 : Spec.IArr 100000 1) (ix2 ⟨t.val * 10000 + r.val, hr⟩ 0) := by
  obtain ⟨-, -, e0, e1, -⟩ := idx_facts6 t
  show V c main_v78 (((cfg6.win 1).blk t).view.emb (ix2 r 0)) = _
  congr 1
  funext a; apply Fin.ext
  match a with
  | ⟨0, _⟩ => show win6_1.index t (0 : Fin 2) * 10000 + 1 * r.val = t.val * 10000 + r.val; omega
  | ⟨1, _⟩ => show win6_1.index t (1 : Fin 2) * 1 + 1 * 0 = 0; omega

theorem iblk6_2_eq (c : Dev nD) (t : Fin cfg6.N) : (iblk6 V c 2 t : Spec.Arr 128 64) = V c main_arg3 := by
  obtain ⟨-, -, -, -, e0, e1, -⟩ := idx_facts6 t
  funext j
  show V c main_arg3 (((cfg6.win 2).blk t).view.emb j) = _
  congr 1
  funext a; apply Fin.ext
  match a with
  | ⟨0, _⟩ => show win6_2.index t (0 : Fin 2) * 128 + 1 * (j 0).val = (j 0).val; omega
  | ⟨1, _⟩ => show win6_2.index t (1 : Fin 2) * 64 + 1 * (j 1).val = (j 1).val; omega

theorem iblk6_3_eq (c : Dev nD) (t : Fin cfg6.N) : (iblk6 V c 3 t : Spec.Arr 128 5) = V c main_arg10 := by
  obtain ⟨-, -, -, -, -, -, e0, e1, -⟩ := idx_facts6 t
  funext j
  show V c main_arg10 (((cfg6.win 3).blk t).view.emb j) = _
  congr 1
  funext a; apply Fin.ext
  match a with
  | ⟨0, _⟩ => show win6_3.index t (0 : Fin 2) * 128 + 1 * (j 0).val = (j 0).val; omega
  | ⟨1, _⟩ => show win6_3.index t (1 : Fin 2) * 5 + 1 * (j 1).val = (j 1).val; omega

theorem iblk6_4_eq (c : Dev nD) (t : Fin cfg6.N) : (iblk6 V c 4 t : Spec.Arr 1 5) = V c main_v79 := by
  obtain ⟨-, -, -, -, -, -, -, -, e0, e1, -⟩ := idx_facts6 t
  funext j
  show V c main_v79 (((cfg6.win 4).blk t).view.emb j) = _
  congr 1
  funext a; apply Fin.ext
  match a with
  | ⟨0, _⟩ => show win6_4.index t (0 : Fin 2) * 1 + 1 * (j 0).val = (j 0).val; omega
  | ⟨1, _⟩ => show win6_4.index t (1 : Fin 2) * 5 + 1 * (j 1).val = (j 1).val; omega

def rowTerm (h : Spec.Arr 100000 64) (b : Spec.IArr 100000 1) (g : Fin 128) (k : Fin 64) (i : ℕ) : EReal :=
  if hi : i < 100000 then Spec.member b g ⟨i, hi⟩ * h (ix2 ⟨i, hi⟩ k) else 0

def cntTerm (b : Spec.IArr 100000 1) (g : Fin 128) (i : ℕ) : EReal :=
  if hi : i < 100000 then Spec.member b g ⟨i, hi⟩ else 0

theorem sums_eq_range (h : Spec.Arr 100000 64) (b : Spec.IArr 100000 1) (g : Fin 128) (k : Fin 64) :
    Spec.sums h b g k = ∑ i ∈ Finset.range 100000, rowTerm h b g k i := by
  rw [← Fin.sum_univ_eq_sum_range (rowTerm h b g k) 100000]
  exact Finset.sum_congr rfl fun n _ => by rw [rowTerm, dif_pos n.isLt]

theorem cnts_eq_range (b : Spec.IArr 100000 1) (g : Fin 128) :
    Spec.cnts b g = ∑ i ∈ Finset.range 100000, cntTerm b g i := by
  rw [← Fin.sum_univ_eq_sum_range (cntTerm b g) 100000]
  exact Finset.sum_congr rfl fun n _ => by rw [cntTerm, dif_pos n.isLt]

theorem blockSum_eq (c : Dev nD) (t : Fin cfg6.N) (g : Fin 128) (k : Fin 64) :
    (∑ r : Fin 10000, hot (iblk6 V c 1 t) g r * iblk6 V c 0 t (ix2 r k))
      = ∑ r ∈ Finset.range 10000, rowTerm (V c main_v77) (V c main_v78) g k (t.val * 10000 + r) := by
  rw [← Fin.sum_univ_eq_sum_range (fun r => rowTerm (V c main_v77) (V c main_v78) g k (t.val * 10000 + r)) 10000]
  refine Finset.sum_congr rfl fun r _ => ?_
  have ht : t.val < 10 := N6 ▸ t.isLt
  have hr : t.val * 10000 + r.val < 100000 := by have := r.isLt; omega
  rw [rowTerm, dif_pos hr, iblk6_0_apply V c t r k hr, hot, iblk6_1_apply V c t r hr]
  rfl

theorem blockCnt_eq (c : Dev nD) (t : Fin cfg6.N) (g : Fin 128) :
    (∑ r : Fin 10000, hot (iblk6 V c 1 t) g r)
      = ∑ r ∈ Finset.range 10000, cntTerm (V c main_v78) g (t.val * 10000 + r) := by
  rw [← Fin.sum_univ_eq_sum_range (fun r => cntTerm (V c main_v78) g (t.val * 10000 + r)) 10000]
  refine Finset.sum_congr rfl fun r _ => ?_
  have ht : t.val < 10 := N6 ▸ t.isLt
  have hr : t.val * 10000 + r.val < 100000 := by have := r.isLt; omega
  rw [cntTerm, dif_pos hr, hot, iblk6_1_apply V c t r hr]
  rfl

theorem sum6_apply (c : Dev nD) (g : Fin 128) (k : Fin 64) : ∀ (n : ℕ) (hn : n < cfg6.N),
    sum6 V c n hn (ix2 g k) = ∑ i ∈ Finset.range ((n + 1) * 10000), rowTerm (V c main_v77) (V c main_v78) g k i
  | 0, hn => by
    rw [sum6_zero, k6_pay4_apply, k6_pay1_apply, zero_add, blockSum_eq]
    refine Finset.sum_congr (by norm_num) fun r _ => ?_
    show rowTerm _ _ g k (0 * 10000 + r) = _
    rw [Nat.zero_mul, Nat.zero_add]
  | n + 1, hn => by
    rw [sum6_succ, k6_pay4_apply, sum6_apply c g k n (Nat.lt_of_succ_lt hn), blockSum_eq,
      show (n + 1 + 1) * 10000 = (n + 1) * 10000 + 10000 by omega, Finset.sum_range_add]

theorem cnt6_apply (c : Dev nD) (g : Fin 128) : ∀ (n : ℕ) (hn : n < cfg6.N),
    cnt6 V c n hn (ix2 g 0) = ∑ i ∈ Finset.range ((n + 1) * 10000), cntTerm (V c main_v78) g i
  | 0, hn => by
    rw [cnt6_zero, k6_pay5_apply, k6_pay2_apply, zero_add, blockCnt_eq]
    refine Finset.sum_congr (by norm_num) fun r _ => ?_
    show cntTerm _ g (0 * 10000 + r) = _
    rw [Nat.zero_mul, Nat.zero_add]
  | n + 1, hn => by
    rw [cnt6_succ, k6_pay5_apply, cnt6_apply c g n (Nat.lt_of_succ_lt hn), blockCnt_eq,
      show (n + 1 + 1) * 10000 = (n + 1) * 10000 + 10000 by omega, Finset.sum_range_add]

theorem sum6_last (c : Dev nD) (g : Fin 128) (k : Fin 64) :
    sum6 V c 9 t6_9.isLt (ix2 g k) = Spec.sums (V c main_v77) (V c main_v78) g k := by
  rw [sum6_apply V c g k 9 t6_9.isLt, sums_eq_range]
theorem cnt6_last (c : Dev nD) (g : Fin 128) :
    cnt6 V c 9 t6_9.isLt (ix2 g 0) = Spec.cnts (V c main_v78) g := by
  rw [cnt6_apply V c g 9 t6_9.isLt, cnts_eq_range]

theorem cat_last (c : Dev nD) (g : Fin 128) (k : Fin 128) :
    (if hk : k.val < 64 then Ideal.div (sum6 V c 9 t6_9.isLt (ix2 g ⟨k.val, hk⟩)) (max (cnt6 V c 9 t6_9.isLt (ix2 g 0)) 1)
      else iblk6 V c 2 t6_9 (ix2 g ⟨k.val - 64, by omega⟩))
      = Spec.cat (V c main_v77) (V c main_v78) (V c main_arg3) g k := by
  unfold Spec.cat Spec.pooled
  by_cases hk : k.val < 64
  · rw [dif_pos hk, dif_pos hk, sum6_last, cnt6_last]
  · rw [dif_neg hk, dif_neg hk]; exact congrFun (iblk6_2_eq V c t6_9) _

theorem after6_last_apply (c : Dev nD) (g : Fin 128) (j : Fin 5) :
    (dat6 V c).after 5 t6_9 (ix2 g j)
      = Spec.poolAt (V c main_v77) (V c main_v78) (V c main_arg3) (V c main_arg10) (V c main_v79) g j := by
  rw [out6_last, k6_pay6_apply]
  unfold Spec.poolAt
  refine congrArg (fun z => Spec.logSoftmax z j) (funext fun j' => ?_)
  unfold Spec.logits
  exact congrArg₂ (· + ·)
    (Finset.sum_congr rfl fun k _ => congrArg₂ (· * ·) (cat_last V c g k) (congrFun (iblk6_3_eq V c t6_9) _))
    (congrFun (iblk6_4_eq V c t6_9) _)

theorem flush6_5_last (t : Fin cfg6.N) (hf : (cfg6.win 5).flush t = true) : t = t6_9 := by
  have h9 := (flush6_5 t).mp hf
  have ht : t.val < 10 := N6 ▸ t.isLt
  apply Fin.ext
  show t.val = 9
  omega

theorem flushed6_5_eq (c : Dev nD) (t : Fin cfg6.N) (hf : (cfg6.win 5).flush t = true) :
    (dat6 V c).flushed 5 t = ((cfg6.win 5).blk t).view.read (Elt Ideal)
      (Spec.pool (V c main_v77) (V c main_v78) (V c main_arg3) (V c main_arg10) (V c main_v79)) := by
  obtain rfl := flush6_5_last t hf
  obtain ⟨-, -, -, -, -, -, -, -, -, -, e0, e1⟩ := idx_facts6 t6_9
  show (cfg6.win 5).cut (grid6.coords t6_9) ((dat6 V c).after 5 t6_9) = _
  funext i
  obtain ⟨g, j, rfl⟩ : ∃ (g : Fin 128) (j : Fin 5), i = ix2 g j := ⟨i 0, i 1, eq_ix2 i⟩
  show (dat6 V c).after 5 t6_9 (ix2 g j) = Spec.pool (V c main_v77) (V c main_v78) (V c main_arg3) (V c main_arg10) (V c main_v79) (((cfg6.win 5).blk t6_9).view.emb (ix2 g j))
  rw [after6_last_apply]
  have he : ((cfg6.win 5).blk t6_9).view.emb (ix2 g j) = ix2 g j := by
    funext a; apply Fin.ext
    match a with
    | ⟨0, _⟩ => show win6_5.index t6_9 (0 : Fin 2) * 128 + 1 * g.val = g.val; omega
    | ⟨1, _⟩ => show win6_5.index t6_9 (1 : Fin 2) * 5 + 1 * j.val = j.val; omega
  rw [he, Spec.pool_apply]

theorem mem_blk6_5 (t : Fin cfg6.N) (i : S128x5.Idx) :
    i ∈ ((cfg6.win 5).blk t).view.set ↔ ∀ a : Fin 2, win6_5.index t a * S128x5.size a ≤ (i a).val ∧ (i a).val < win6_5.index t a * S128x5.size a + S128x5.size a := by
  show i ∈ ((View.whole main_v80).slice (win6_5.rect t)).set ↔ _
  rw [View.set_slice_whole, Rect.mem_set_unit]
  exact Iff.rfl

theorem cover6_5 (i : S128x5.Idx) : ∃ t : Fin cfg6.N, (cfg6.win 5).flush t = true ∧ i ∈ ((cfg6.win 5).blk t).view.set := by
  obtain ⟨-, -, -, -, -, -, -, -, -, -, e0, e1⟩ := idx_facts6 t6_9
  refine ⟨t6_9, (flush6_5 t6_9).mpr (by show 9 % 10 = 9; rfl), ?_⟩
  rw [mem_blk6_5]
  intro a
  match a with
  | ⟨0, _⟩ => show win6_5.index t6_9 (0 : Fin 2) * 128 ≤ (i 0).val ∧ (i 0).val < win6_5.index t6_9 (0 : Fin 2) * 128 + 128; have h0 : (i 0).val < 128 := (i 0).isLt; omega
  | ⟨1, _⟩ => show win6_5.index t6_9 (1 : Fin 2) * 5 ≤ (i 1).val ∧ (i 1).val < win6_5.index t6_9 (1 : Fin 2) * 5 + 5; have h1 : (i 1).val < 5 := (i 1).isLt; omega

theorem pool_arr (c : Dev nD) : ((dat6 V c).arrAt 5 cfg6.N : Spec.Arr 128 5) = Spec.pool (V c main_v77) (V c main_v78) (V c main_arg3) (V c main_arg10) (V c main_v79) :=
  (dat6 V c).arrAt_eq_of_cover 5 _ (fun t hf => flushed6_5_eq V c t hf) cover6_5

end Cert.KernelIdeal.Val

end
-- ==== Proof.RefReadP.lean ====
import proofs.«430252_j4990751998361_2_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S100000x2, .f32⟩ : BufTy).Contents (Elt F))
  (x1 : (⟨S2x1000000, .i32⟩ : BufTy).Contents (Elt F))
  (x2 : (⟨S100000, .i32⟩ : BufTy).Contents (Elt F))
  (x3 : (⟨S128x64, .f32⟩ : BufTy).Contents (Elt F))
  (x4 : (⟨S2x64, .f32⟩ : BufTy).Contents (Elt F))
  (x5 : (⟨S64, .f32⟩ : BufTy).Contents (Elt F))
  (x6 : (⟨S64x64, .f32⟩ : BufTy).Contents (Elt F))
  (x7 : (⟨S64, .f32⟩ : BufTy).Contents (Elt F))
  (x8 : (⟨S64x64, .f32⟩ : BufTy).Contents (Elt F))
  (x9 : (⟨S64, .f32⟩ : BufTy).Contents (Elt F))
  (x10 : (⟨S128x5, .f32⟩ : BufTy).Contents (Elt F))
  (x11 : (⟨S5, .f32⟩ : BufTy).Contents (Elt F))

def val_main_v0 : (⟨S100000, .i32⟩ : BufTy).Contents (Elt F) :=
  iotaInDim S100000 32 0

def val_main_v1 : (⟨S1x1000000, .i32⟩ : BufTy).Contents (Elt F) :=
  extractStridedSlice S1x1000000 ![0, 0] (x1) slices_S2x1000000_S1x1000000_0_0

def val_main_v2 : (⟨S1000000, .i32⟩ : BufTy).Contents (Elt F) :=
  shapeCast _ (val_main_v1 (F := F) x1) shapeCasts_S1x1000000_S1000000

def val_main_v3 : (⟨S1100000, .i32⟩ : BufTy).Contents (Elt F) :=
  concatenate S1100000 0 [⟨S1000000, (val_main_v2 (F := F) x1)⟩, ⟨S100000, (val_main_v0 (F := F))⟩] concatenates_S1000000_S100000_S1100000_d0

def val_main_v4 : (⟨S1x1000000, .i32⟩ : BufTy).Contents (Elt F) :=
  extractStridedSlice S1x1000000 ![1, 0] (x1) slices_S2x1000000_S1x1000000_1_0

def val_main_v5 : (⟨S1000000, .i32⟩ : BufTy).Contents (Elt F) :=
  shapeCast _ (val_main_v4 (F := F) x1) shapeCasts_S1x1000000_S1000000

def val_main_v6 : (⟨S1100000, .i32⟩ : BufTy).Contents (Elt F) :=
  concatenate S1100000 0 [⟨S1000000, (val_main_v5 (F := F) x1)⟩, ⟨S100000, (val_main_v0 (F := F))⟩] concatenates_S1000000_S100000_S1100000_d0

def val_main_cst : (⟨S_, .f32⟩ : BufTy).Contents (Elt F) :=
  constant S_ .f32 0x3F800000#32

def val_main_v7 : (⟨S1100000, .f32⟩ : BufTy).Contents (Elt F) :=
  broadcastInDim S1100000 ![] bcast_S_S1100000 (val_main_cst (F := F))

def val_main_cst_0 : (⟨S_, .f32⟩ : BufTy).Contents (Elt F) :=
  constant S_ .f32 0x00000000#32

def val_main_v8 : (⟨S100000, .f32⟩ : BufTy).Contents (Elt F) :=
  broadcastInDim S100000 ![] bcast_S_S100000 (val_main_cst_0 (F := F))

def val_main_v9 : (⟨S1100000x1, .i32⟩ : BufTy).Contents (Elt F) :=
  broadcastInDim S1100000x1 ![0] bcast_S1100000_S1100000x1_0 (val_main_v6 (F := F) x1)

def val_main_v10 : (⟨S100000, .f32⟩ : BufTy).Contents (Elt F) :=
  Host.scatterAdd scatter_S100000_S1100000x1_S1100000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S100000, .f32⟩ : BufTy).Contents (Elt F) :=
  broadcastInDim S100000 ![] bcast_S_S100000 (val_main_cst_1 (F := F))

def val_main_v12 : (⟨S100000, .i1⟩ : BufTy).Contents (Elt F) :=
  cmpf .ogt (val_main_v10 (F := F) x1) (val_main_v11 (F := F))

def val_main_v13 : (⟨S100000, .f32⟩ : BufTy).Contents (Elt F) :=
  Host.rsqrt (val_main_v10 (F := F) x1)

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S100000, .f32⟩ : BufTy).Contents (Elt F) :=
  broadcastInDim S100000 ![] bcast_S_S100000 (val_main_call0_v0 (F := F))

def val_main_v14 : (⟨S100000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32

def val_main_v15 : (⟨S1100000, .i32⟩ : BufTy).Contents (Elt F) :=
  broadcastInDim S1100000 ![] bcast_S_S1100000 (val_main_c (F := F))

def val_main_v16 : (⟨S1100000, .i1⟩ : BufTy).Contents (Elt F) :=
  cmpi .slt (val_main_v3 (F := F) x1) (val_main_v15 (F := F))

def val_main_c_3 : (⟨S_, .i32⟩ : BufTy).Contents (Elt F) :=
  constantI S_ 32 100000#32

def val_main_v17 : (⟨S1100000, .i32⟩ : BufTy).Contents (Elt F) :=
  broadcastInDim S1100000 ![] bcast_S_S1100000 (val_main_c_3 (F := F))

def val_main_v18 : (⟨S1100000, .i32⟩ : BufTy).Contents (Elt F) :=
  addi (val_main_v3 (F := F) x1) (val_main_v17 (F := F))

def val_main_v19 : (⟨S1100000, .i32⟩ : BufTy).Contents (Elt F) :=
  select (val_main_v16 (F := F) x1) (val_main_v18 (F := F) x1) (val_main_v3 (F := F) x1)

def val_main_v20 : (⟨S1100000x1, .i32⟩ : BufTy).Contents (Elt F) :=
  broadcastInDim S1100000x1 ![0] bcast_S1100000_S1100000x1_0 (val_main_v19 (F := F) x1)

def val_main_v21 : (⟨S1100000, .f32⟩ : BufTy).Contents (Elt F) :=
  Host.gather gather_S100000_S1100000x1_S1100000_n_0_n_n_0_1_1 (val_main_v14 (F := F) x1) (val_main_v20 (F := F) x1)

def val_main_c_4 : (⟨S_, .i32⟩ : BufTy).Contents (Elt F) :=
  constantI S_ 32 0#32

def val_main_v22 : (⟨S1100000, .i32⟩ : BufTy).Contents (Elt F) :=
  broadcastInDim S1100000 ![] bcast_S_S1100000 (val_main_c_4 (F := F))

def val_main_v23 : (⟨S1100000, .i1⟩ : BufTy).Contents (Elt F) :=
  cmpi .slt (val_main_v6 (F := F) x1) (val_main_v22 (F := F))

def val_main_c_5 : (⟨S_, .i32⟩ : BufTy).Contents (Elt F) :=
  constantI S_ 32 100000#32

def val_main_v24 : (⟨S1100000, .i32⟩ : BufTy).Contents (Elt F) :=
  broadcastInDim S1100000 ![] bcast_S_S1100000 (val_main_c_5 (F := F))

def val_main_v25 : (⟨S1100000, .i32⟩ : BufTy).Contents (Elt F) :=
  addi (val_main_v6 (F := F) x1) (val_main_v24 (F := F))

def val_main_v26 : (⟨S1100000, .i32⟩ : BufTy).Contents (Elt F) :=
  select (val_main_v23 (F := F) x1) (val_main_v25 (F := F) x1) (val_main_v6 (F := F) x1)

def val_main_v27 : (⟨S1100000x1, .i32⟩ : BufTy).Contents (Elt F) :=
  broadcastInDim S1100000x1 ![0] bcast_S1100000_S1100000x1_0 (val_main_v26 (F := F) x1)

def val_main_v28 : (⟨S1100000, .f32⟩ : BufTy).Contents (Elt F) :=
  Host.gather gather_S100000_S1100000x1_S1100000_n_0_n_n_0_1_1 (val_main_v14 (F := F) x1) (val_main_v27 (F := F) x1)

def val_main_v29 : (⟨S1100000, .f32⟩ : BufTy).Contents (Elt F) :=
  mulf (val_main_v21 (F := F) x1) (val_main_v28 (F := F) x1)

def val_main_v30 : (⟨S100000x64, .f32⟩ : BufTy).Contents (Elt F) :=
  Host.dotGeneral dot_S100000x2_S2x64_S100000x64_1_0_0_1_n_n none (x0) (x4)

theorem lhs_main_v30_0 (i : S100000x64.Idx) (q : dot_S100000x2_S2x64_S100000x64_1_0_0_1_n_n.contr.Idx) :
    (dot_S100000x2_S2x64_S100000x64_1_0_0_1_n_n.lhsIdx i q 0).val = (i 0).val := by
  unfold DotDims.lhsIdx
  rw [dif_neg (show ¬(0 : Fin S100000x2.rank) ∈ dot_S100000x2_S2x64_S100000x64_1_0_0_1_n_n.lhsBatch by decide), dif_pos (show (0 : Fin S100000x2.rank) ∈ dot_S100000x2_S2x64_S100000x64_1_0_0_1_n_n.lhsNonContracting by decide)]
  rfl

theorem lhs_main_v30_1 (i : S100000x64.Idx) (q : dot_S100000x2_S2x64_S100000x64_1_0_0_1_n_n.contr.Idx) :
    (dot_S100000x2_S2x64_S100000x64_1_0_0_1_n_n.lhsIdx i q 1).val = (q ⟨0, by decide⟩).val :=
  dot_S100000x2_S2x64_S100000x64_1_0_0_1_n_n.lhsIdx_val_of_single rfl i q

theorem rhs_main_v30_0 (i : S100000x64.Idx) (q : dot_S100000x2_S2x64_S100000x64_1_0_0_1_n_n.contr.Idx) :
    (dot_S100000x2_S2x64_S100000x64_1_0_0_1_n_n.rhsIdx i q 0).val = (q ⟨0, by decide⟩).val :=
  dot_S100000x2_S2x64_S100000x64_1_0_0_1_n_n.rhsIdx_val_of_single rfl i q

theorem rhs_main_v30_1 (i : S100000x64.Idx) (q : dot_S100000x2_S2x64_S100000x64_1_0_0_1_n_n.contr.Idx) :
    (dot_S100000x2_S2x64_S100000x64_1_0_0_1_n_n.rhsIdx i q 1).val = (i 1).val := by
  unfold DotDims.rhsIdx
  rw [dif_neg (show ¬(1 : Fin S2x64.rank) ∈ dot_S100000x2_S2x64_S100000x64_1_0_0_1_n_n.rhsBatch by decide), dif_pos (show (1 : Fin S2x64.rank) ∈ dot_S100000x2_S2x64_S100000x64_1_0_0_1_n_n.rhsNonContracting by decide)]
  rfl

abbrev lidx_main_v30 (i : S100000x64.Idx) (k : Fin 2) : S100000x2.Idx := fun a => match a with
  | ⟨0, _⟩ => ⟨(i 0).val, (i 0).isLt⟩
  | ⟨1, _⟩ => ⟨k.val, k.isLt⟩

abbrev ridx_main_v30 (i : S100000x64.Idx) (k : Fin 2) : S2x64.Idx := fun a => match a with
  | ⟨0, _⟩ => ⟨k.val, k.isLt⟩
  | ⟨1, _⟩ => ⟨(i 1).val, (i 1).isLt⟩

theorem val_main_v30_apply (x0 : (⟨S100000x2, .f32⟩ : BufTy).Contents (Elt Ideal)) (x4 : (⟨S2x64, .f32⟩ : BufTy).Contents (Elt Ideal)) (i : S100000x64.Idx) :
    val_main_v30 (F := Ideal) x0 x4 i = ∑ k : Fin 2, x0 (lidx_main_v30 i k) * x4 (ridx_main_v30 i k) := by
  unfold val_main_v30
  simp only [Host.dotGeneral]
  rw [Ideal.dotGeneral_apply, ← Equiv.sum_comp (ValueIdx.contrEquiv1 dot_S100000x2_S2x64_S100000x64_1_0_0_1_n_n 2 rfl rfl).symm]
  refine Finset.sum_congr rfl fun k _ => ?_
  have hk := ValueIdx.contrEquiv1_symm_val dot_S100000x2_S2x64_S100000x64_1_0_0_1_n_n 2 rfl rfl k
  have el : dot_S100000x2_S2x64_S100000x64_1_0_0_1_n_n.lhsIdx i ((ValueIdx.contrEquiv1 dot_S100000x2_S2x64_S100000x64_1_0_0_1_n_n 2 rfl rfl).symm k) = lidx_main_v30 i k := funext fun a => Fin.ext (by
    match a with
    | ⟨0, _⟩ => exact lhs_main_v30_0 _ _
    | ⟨1, _⟩ => exact (lhs_main_v30_1 _ _).trans hk)
  have er : dot_S100000x2_S2x64_S100000x64_1_0_0_1_n_n.rhsIdx i ((ValueIdx.contrEquiv1 dot_S100000x2_S2x64_S100000x64_1_0_0_1_n_n 2 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_v31 : (⟨S1100000x1, .f32⟩ : BufTy).Contents (Elt F) :=
  broadcastInDim S1100000x1 ![0] bcast_S1100000_S1100000x1_0 (val_main_v29 (F := F) x1)

def val_main_c_6 : (⟨S_, .i32⟩ : BufTy).Contents (Elt F) :=
  constantI S_ 32 0#32

def val_main_v32 : (⟨S1100000, .i32⟩ : BufTy).Contents (Elt F) :=
  broadcastInDim S1100000 ![] bcast_S_S1100000 (val_main_c_6 (F := F))

def val_main_v33 : (⟨S1100000, .i1⟩ : BufTy).Contents (Elt F) :=
  cmpi .slt (val_main_v3 (F := F) x1) (val_main_v32 (F := F))

def val_main_c_7 : (⟨S_, .i32⟩ : BufTy).Contents (Elt F) :=
  constantI S_ 32 100000#32

def val_main_v34 : (⟨S1100000, .i32⟩ : BufTy).Contents (Elt F) :=
  broadcastInDim S1100000 ![] bcast_S_S1100000 (val_main_c_7 (F := F))

def val_main_v35 : (⟨S1100000, .i32⟩ : BufTy).Contents (Elt F) :=
  addi (val_main_v3 (F := F) x1) (val_main_v34 (F := F))

def val_main_v36 : (⟨S1100000, .i32⟩ : BufTy).Contents (Elt F) :=
  select (val_main_v33 (F := F) x1) (val_main_v35 (F := F) x1) (val_main_v3 (F := F) x1)

def val_main_v37 : (⟨S1100000x1, .i32⟩ : BufTy).Contents (Elt F) :=
  broadcastInDim S1100000x1 ![0] bcast_S1100000_S1100000x1_0 (val_main_v36 (F := F) x1)

def val_main_v38 : (⟨S1100000x64, .f32⟩ : BufTy).Contents (Elt F) :=
  Host.gather gather_S100000x64_S1100000x1_S1100000x64_1_0_n_n_0_1_164 (val_main_v30 (F := F) x0 x4) (val_main_v37 (F := F) x1)

def val_main_v39 : (⟨S1100000x64, .f32⟩ : BufTy).Contents (Elt F) :=
  broadcastInDim S1100000x64 ![0, 1] bcast_S1100000x1_S1100000x64_0_1 (val_main_v31 (F := F) x1)

def val_main_v40 : (⟨S1100000x64, .f32⟩ : BufTy).Contents (Elt F) :=
  mulf (val_main_v39 (F := F) x1) (val_main_v38 (F := F) x0 x1 x4)

def val_main_cst_8 : (⟨S_, .f32⟩ : BufTy).Contents (Elt F) :=
  constant S_ .f32 0x00000000#32

def val_main_v41 : (⟨S100000x64, .f32⟩ : BufTy).Contents (Elt F) :=
  broadcastInDim S100000x64 ![] bcast_S_S100000x64 (val_main_cst_8 (F := F))

def val_main_v42 : (⟨S1100000x1, .i32⟩ : BufTy).Contents (Elt F) :=
  broadcastInDim S1100000x1 ![0] bcast_S1100000_S1100000x1_0 (val_main_v6 (F := F) x1)

def val_main_v43 : (⟨S100000x64, .f32⟩ : BufTy).Contents (Elt F) :=
  Host.scatterAdd scatter_S100000x64_S1100000x1_S1100000x64_1_0_0_1 (val_main_v41 (F := F)) (val_main_v42 (F := F) x1) (val_main_v40 (F := F) x0 x1 x4)

def val_main_v44 : (⟨S1x64, .f32⟩ : BufTy).Contents (Elt F) :=
  broadcastInDim S1x64 ![1] bcast_S64_S1x64_1 (x5)

abbrev idx_main_v44 (i : S1x64.Idx) : S64.Idx := fun a => match a with
  | ⟨0, _⟩ => ⟨(i 1).val, (i 1).isLt⟩

theorem val_main_v44_apply (i : S1x64.Idx) :
    val_main_v44 (F := F) x5 i = x5 (idx_main_v44 i) := by
  unfold val_main_v44
  exact broadcastInDim_apply _ bcast_S64_S1x64_1 x5 i (idx_main_v44 i) (fun a => match a with
    | ⟨0, _⟩ => by show (i 1).val = if (64 : Nat) = 1 then 0 else (i 1).val; rw [if_neg (by decide)])

def val_main_v45 : (⟨S100000x64, .f32⟩ : BufTy).Contents (Elt F) :=
  broadcastInDim S100000x64 ![0, 1] bcast_S1x64_S100000x64_0_1 (val_main_v44 (F := F) x5)

abbrev idx_main_v45 (i : S100000x64.Idx) : S1x64.Idx := fun a => match a with
  | ⟨0, _⟩ => ⟨0, Nat.one_pos⟩
  | ⟨1, _⟩ => ⟨(i 1).val, (i 1).isLt⟩

theorem val_main_v45_apply (i : S100000x64.Idx) :
    val_main_v45 (F := F) x5 i = val_main_v44 (F := F) x5 (idx_main_v45 i) := by
  unfold val_main_v45
  generalize val_main_v44 (F := F) x5 = y
  exact broadcastInDim_apply _ bcast_S1x64_S100000x64_0_1 y i (idx_main_v45 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v46 : (⟨S100000x64, .f32⟩ : BufTy).Contents (Elt F) :=
  addf (val_main_v43 (F := F) x0 x1 x4) (val_main_v45 (F := F) x5)

theorem val_main_v46_apply (i : S100000x64.Idx) :
    val_main_v46 (F := F) x0 x1 x4 x5 i = FloatOps.addf (val_main_v43 (F := F) x0 x1 x4 i) (val_main_v45 (F := F) x5 i) := rfl

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S100000x64, .f32⟩ : BufTy).Contents (Elt F) :=
  broadcastInDim S100000x64 ![] bcast_S_S100000x64 (val_main_call1_cst (F := F))

abbrev idx_main_call1_v0 (i : S100000x64.Idx) : S_.Idx := fun a => a.elim0

theorem val_main_call1_v0_apply (i : S100000x64.Idx) :
    val_main_call1_v0 (F := F) i = val_main_call1_cst (F := F) (idx_main_call1_v0 i) := by
  unfold val_main_call1_v0
  generalize val_main_call1_cst (F := F) = y
  exact broadcastInDim_apply _ bcast_S_S100000x64 y i (idx_main_call1_v0 i) (fun a => a.elim0)

def val_main_v47 : (⟨S100000x64, .f32⟩ : BufTy).Contents (Elt F) :=
  maximumf (val_main_v46 (F := F) x0 x1 x4 x5) (val_main_call1_v0 (F := F))

theorem val_main_v47_apply (i : S100000x64.Idx) :
    val_main_v47 (F := F) x0 x1 x4 x5 i = FloatOps.maximumf (val_main_v46 (F := F) x0 x1 x4 x5 i) (val_main_call1_v0 (F := F) i) := rfl

def val_main_v48 : (⟨S100000x64, .f32⟩ : BufTy).Contents (Elt F) :=
  Host.dotGeneral dot_S100000x64_S64x64_S100000x64_1_0_0_1_n_n none (val_main_v47 (F := F) x0 x1 x4 x5) (x6)

theorem lhs_main_v48_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v48_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v48_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v48_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v48 (i : S100000x64.Idx) (k : Fin 64) : S100000x64.Idx := fun a => match a with
  | ⟨0, _⟩ => ⟨(i 0).val, (i 0).isLt⟩
  | ⟨1, _⟩ => ⟨k.val, k.isLt⟩

abbrev ridx_main_v48 (i : S100000x64.Idx) (k : Fin 64) : S64x64.Idx := fun a => match a with
  | ⟨0, _⟩ => ⟨k.val, k.isLt⟩
  | ⟨1, _⟩ => ⟨(i 1).val, (i 1).isLt⟩

theorem val_main_v48_apply (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (i : S100000x64.Idx) :
    val_main_v48 (F := Ideal) x0 x1 x4 x5 x6 i = ∑ k : Fin 64, (val_main_v47 (F := Ideal) x0 x1 x4 x5) (lidx_main_v48 i k) * x6 (ridx_main_v48 i k) := by
  unfold val_main_v48
  generalize val_main_v47 (F := Ideal) x0 x1 x4 x5 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v48 i k := funext fun a => Fin.ext (by
    match a with
    | ⟨0, _⟩ => exact (rhs_main_v48_0 _ _).trans hk
    | ⟨1, _⟩ => exact rhs_main_v48_1 _ _)
  rw [el, er]

def val_main_v49 : (⟨S1100000x1, .f32⟩ : BufTy).Contents (Elt F) :=
  broadcastInDim S1100000x1 ![0] bcast_S1100000_S1100000x1_0 (val_main_v29 (F := F) x1)

def val_main_c_9 : (⟨S_, .i32⟩ : BufTy).Contents (Elt F) :=
  constantI S_ 32 0#32

def val_main_v50 : (⟨S1100000, .i32⟩ : BufTy).Contents (Elt F) :=
  broadcastInDim S1100000 ![] bcast_S_S1100000 (val_main_c_9 (F := F))

def val_main_v51 : (⟨S1100000, .i1⟩ : BufTy).Contents (Elt F) :=
  cmpi .slt (val_main_v3 (F := F) x1) (val_main_v50 (F := F))

def val_main_c_10 : (⟨S_, .i32⟩ : BufTy).Contents (Elt F) :=
  constantI S_ 32 100000#32

def val_main_v52 : (⟨S1100000, .i32⟩ : BufTy).Contents (Elt F) :=
  broadcastInDim S1100000 ![] bcast_S_S1100000 (val_main_c_10 (F := F))

def val_main_v53 : (⟨S1100000, .i32⟩ : BufTy).Contents (Elt F) :=
  addi (val_main_v3 (F := F) x1) (val_main_v52 (F := F))

def val_main_v54 : (⟨S1100000, .i32⟩ : BufTy).Contents (Elt F) :=
  select (val_main_v51 (F := F) x1) (val_main_v53 (F := F) x1) (val_main_v3 (F := F) x1)

def val_main_v55 : (⟨S1100000x1, .i32⟩ : BufTy).Contents (Elt F) :=
  broadcastInDim S1100000x1 ![0] bcast_S1100000_S1100000x1_0 (val_main_v54 (F := F) x1)

def val_main_v56 : (⟨S1100000x64, .f32⟩ : BufTy).Contents (Elt F) :=
  Host.gather gather_S100000x64_S1100000x1_S1100000x64_1_0_n_n_0_1_164 (val_main_v48 (F := F) x0 x1 x4 x5 x6) (val_main_v55 (F := F) x1)

def val_main_v57 : (⟨S1100000x64, .f32⟩ : BufTy).Contents (Elt F) :=
  broadcastInDim S1100000x64 ![0, 1] bcast_S1100000x1_S1100000x64_0_1 (val_main_v49 (F := F) x1)

def val_main_v58 : (⟨S1100000x64, .f32⟩ : BufTy).Contents (Elt F) :=
  mulf (val_main_v57 (F := F) x1) (val_main_v56 (F := F) x0 x1 x4 x5 x6)

def val_main_cst_11 : (⟨S_, .f32⟩ : BufTy).Contents (Elt F) :=
  constant S_ .f32 0x00000000#32

def val_main_v59 : (⟨S100000x64, .f32⟩ : BufTy).Contents (Elt F) :=
  broadcastInDim S100000x64 ![] bcast_S_S100000x64 (val_main_cst_11 (F := F))

def val_main_v60 : (⟨S1100000x1, .i32⟩ : BufTy).Contents (Elt F) :=
  broadcastInDim S1100000x1 ![0] bcast_S1100000_S1100000x1_0 (val_main_v6 (F := F) x1)

def val_main_v61 : (⟨S100000x64, .f32⟩ : BufTy).Contents (Elt F) :=
  Host.scatterAdd scatter_S100000x64_S1100000x1_S1100000x64_1_0_0_1 (val_main_v59 (F := F)) (val_main_v60 (F := F) x1) (val_main_v58 (F := F) x0 x1 x4 x5 x6)

def val_main_v62 : (⟨S1x64, .f32⟩ : BufTy).Contents (Elt F) :=
  broadcastInDim S1x64 ![1] bcast_S64_S1x64_1 (x7)

abbrev idx_main_v62 (i : S1x64.Idx) : S64.Idx := fun a => match a with
  | ⟨0, _⟩ => ⟨(i 1).val, (i 1).isLt⟩

theorem val_main_v62_apply (i : S1x64.Idx) :
    val_main_v62 (F := F) x7 i = x7 (idx_main_v62 i) := by
  unfold val_main_v62
  exact broadcastInDim_apply _ bcast_S64_S1x64_1 x7 i (idx_main_v62 i) (fun a => match a with
    | ⟨0, _⟩ => by show (i 1).val = if (64 : Nat) = 1 then 0 else (i 1).val; rw [if_neg (by decide)])

def val_main_v63 : (⟨S100000x64, .f32⟩ : BufTy).Contents (Elt F) :=
  broadcastInDim S100000x64 ![0, 1] bcast_S1x64_S100000x64_0_1 (val_main_v62 (F := F) x7)

abbrev idx_main_v63 (i : S100000x64.Idx) : S1x64.Idx := fun a => match a with
  | ⟨0, _⟩ => ⟨0, Nat.one_pos⟩
  | ⟨1, _⟩ => ⟨(i 1).val, (i 1).isLt⟩

theorem val_main_v63_apply (i : S100000x64.Idx) :
    val_main_v63 (F := F) x7 i = val_main_v62 (F := F) x7 (idx_main_v63 i) := by
  unfold val_main_v63
  generalize val_main_v62 (F := F) x7 = y
  exact broadcastInDim_apply _ bcast_S1x64_S100000x64_0_1 y i (idx_main_v63 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v64 : (⟨S100000x64, .f32⟩ : BufTy).Contents (Elt F) :=
  addf (val_main_v61 (F := F) x0 x1 x4 x5 x6) (val_main_v63 (F := F) x7)

theorem val_main_v64_apply (i : S100000x64.Idx) :
    val_main_v64 (F := F) x0 x1 x4 x5 x6 x7 i = FloatOps.addf (val_main_v61 (F := F) x0 x1 x4 x5 x6 i) (val_main_v63 (F := F) x7 i) := rfl

def val_main_call2_cst : (⟨S_, .f32⟩ : BufTy).Contents (Elt F) :=
  constant S_ .f32 0x00000000#32

theorem val_main_call2_cst_apply (i : S_.Idx) :
    val_main_call2_cst (F := F) i = FloatOps.ofBits .f32 0x00000000#32 := rfl

def val_main_call2_v0 : (⟨S100000x64, .f32⟩ : BufTy).Contents (Elt F) :=
  broadcastInDim S100000x64 ![] bcast_S_S100000x64 (val_main_call2_cst (F := F))

abbrev idx_main_call2_v0 (i : S100000x64.Idx) : S_.Idx := fun a => a.elim0

theorem val_main_call2_v0_apply (i : S100000x64.Idx) :
    val_main_call2_v0 (F := F) i = val_main_call2_cst (F := F) (idx_main_call2_v0 i) := by
  unfold val_main_call2_v0
  generalize val_main_call2_cst (F := F) = y
  exact broadcastInDim_apply _ bcast_S_S100000x64 y i (idx_main_call2_v0 i) (fun a => a.elim0)

def val_main_v65 : (⟨S100000x64, .f32⟩ : BufTy).Contents (Elt F) :=
  maximumf (val_main_v64 (F := F) x0 x1 x4 x5 x6 x7) (val_main_call2_v0 (F := F))

theorem val_main_v65_apply (i : S100000x64.Idx) :
    val_main_v65 (F := F) x0 x1 x4 x5 x6 x7 i = FloatOps.maximumf (val_main_v64 (F := F) x0 x1 x4 x5 x6 x7 i) (val_main_call2_v0 (F := F) i) := rfl

def val_main_v66 : (⟨S100000x64, .f32⟩ : BufTy).Contents (Elt F) :=
  Host.dotGeneral dot_S100000x64_S64x64_S100000x64_1_0_0_1_n_n none (val_main_v65 (F := F) x0 x1 x4 x5 x6 x7) (x8)

theorem lhs_main_v66_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v66_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v66_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v66_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v66 (i : S100000x64.Idx) (k : Fin 64) : S100000x64.Idx := fun a => match a with
  | ⟨0, _⟩ => ⟨(i 0).val, (i 0).isLt⟩
  | ⟨1, _⟩ => ⟨k.val, k.isLt⟩

abbrev ridx_main_v66 (i : S100000x64.Idx) (k : Fin 64) : S64x64.Idx := fun a => match a with
  | ⟨0, _⟩ => ⟨k.val, k.isLt⟩
  | ⟨1, _⟩ => ⟨(i 1).val, (i 1).isLt⟩

theorem val_main_v66_apply (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (i : S100000x64.Idx) :
    val_main_v66 (F := Ideal) x0 x1 x4 x5 x6 x7 x8 i = ∑ k : Fin 64, (val_main_v65 (F := Ideal) x0 x1 x4 x5 x6 x7) (lidx_main_v66 i k) * x8 (ridx_main_v66 i k) := by
  unfold val_main_v66
  generalize val_main_v65 (F := Ideal) x0 x1 x4 x5 x6 x7 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v66 i k := funext fun a => Fin.ext (by
    match a with
    | ⟨0, _⟩ => exact lhs_main_v66_0 _ _
    | ⟨1, _⟩ => exact (lhs_main_v66_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v66 i k := funext fun a => Fin.ext (by
    match a with
    | ⟨0, _⟩ => exact (rhs_main_v66_0 _ _).trans hk
    | ⟨1, _⟩ => exact rhs_main_v66_1 _ _)
  rw [el, er]

def val_main_v67 : (⟨S1100000x1, .f32⟩ : BufTy).Contents (Elt F) :=
  broadcastInDim S1100000x1 ![0] bcast_S1100000_S1100000x1_0 (val_main_v29 (F := F) x1)

def val_main_c_12 : (⟨S_, .i32⟩ : BufTy).Contents (Elt F) :=
  constantI S_ 32 0#32

def val_main_v68 : (⟨S1100000, .i32⟩ : BufTy).Contents (Elt F) :=
  broadcastInDim S1100000 ![] bcast_S_S1100000 (val_main_c_12 (F := F))

def val_main_v69 : (⟨S1100000, .i1⟩ : BufTy).Contents (Elt F) :=
  cmpi .slt (val_main_v3 (F := F) x1) (val_main_v68 (F := F))

def val_main_c_13 : (⟨S_, .i32⟩ : BufTy).Contents (Elt F) :=
  constantI S_ 32 100000#32

def val_main_v70 : (⟨S1100000, .i32⟩ : BufTy).Contents (Elt F) :=
  broadcastInDim S1100000 ![] bcast_S_S1100000 (val_main_c_13 (F := F))

def val_main_v71 : (⟨S1100000, .i32⟩ : BufTy).Contents (Elt F) :=
  addi (val_main_v3 (F := F) x1) (val_main_v70 (F := F))

def val_main_v72 : (⟨S1100000, .i32⟩ : BufTy).Contents (Elt F) :=
  select (val_main_v69 (F := F) x1) (val_main_v71 (F := F) x1) (val_main_v3 (F := F) x1)

def val_main_v73 : (⟨S1100000x1, .i32⟩ : BufTy).Contents (Elt F) :=
  broadcastInDim S1100000x1 ![0] bcast_S1100000_S1100000x1_0 (val_main_v72 (F := F) x1)

def val_main_v74 : (⟨S1100000x64, .f32⟩ : BufTy).Contents (Elt F) :=
  Host.gather gather_S100000x64_S1100000x1_S1100000x64_1_0_n_n_0_1_164 (val_main_v66 (F := F) x0 x1 x4 x5 x6 x7 x8) (val_main_v73 (F := F) x1)

def val_main_v75 : (⟨S1100000x64, .f32⟩ : BufTy).Contents (Elt F) :=
  broadcastInDim S1100000x64 ![0, 1] bcast_S1100000x1_S1100000x64_0_1 (val_main_v67 (F := F) x1)

def val_main_v76 : (⟨S1100000x64, .f32⟩ : BufTy).Contents (Elt F) :=
  mulf (val_main_v75 (F := F) x1) (val_main_v74 (F := F) x0 x1 x4 x5 x6 x7 x8)

def val_main_cst_14 : (⟨S_, .f32⟩ : BufTy).Contents (Elt F) :=
  constant S_ .f32 0x00000000#32

def val_main_v77 : (⟨S100000x64, .f32⟩ : BufTy).Contents (Elt F) :=
  broadcastInDim S100000x64 ![] bcast_S_S100000x64 (val_main_cst_14 (F := F))

def val_main_v78 : (⟨S1100000x1, .i32⟩ : BufTy).Contents (Elt F) :=
  broadcastInDim S1100000x1 ![0] bcast_S1100000_S1100000x1_0 (val_main_v6 (F := F) x1)

def val_main_v79 : (⟨S100000x64, .f32⟩ : BufTy).Contents (Elt F) :=
  Host.scatterAdd scatter_S100000x64_S1100000x1_S1100000x64_1_0_0_1 (val_main_v77 (F := F)) (val_main_v78 (F := F) x1) (val_main_v76 (F := F) x0 x1 x4 x5 x6 x7 x8)

def val_main_v80 : (⟨S1x64, .f32⟩ : BufTy).Contents (Elt F) :=
  broadcastInDim S1x64 ![1] bcast_S64_S1x64_1 (x9)

abbrev idx_main_v80 (i : S1x64.Idx) : S64.Idx := fun a => match a with
  | ⟨0, _⟩ => ⟨(i 1).val, (i 1).isLt⟩

theorem val_main_v80_apply (i : S1x64.Idx) :
    val_main_v80 (F := F) x9 i = x9 (idx_main_v80 i) := by
  unfold val_main_v80
  exact broadcastInDim_apply _ bcast_S64_S1x64_1 x9 i (idx_main_v80 i) (fun a => match a with
    | ⟨0, _⟩ => by show (i 1).val = if (64 : Nat) = 1 then 0 else (i 1).val; rw [if_neg (by decide)])

def val_main_v81 : (⟨S100000x64, .f32⟩ : BufTy).Contents (Elt F) :=
  broadcastInDim S100000x64 ![0, 1] bcast_S1x64_S100000x64_0_1 (val_main_v80 (F := F) x9)

abbrev idx_main_v81 (i : S100000x64.Idx) : S1x64.Idx := fun a => match a with
  | ⟨0, _⟩ => ⟨0, Nat.one_pos⟩
  | ⟨1, _⟩ => ⟨(i 1).val, (i 1).isLt⟩

theorem val_main_v81_apply (i : S100000x64.Idx) :
    val_main_v81 (F := F) x9 i = val_main_v80 (F := F) x9 (idx_main_v81 i) := by
  unfold val_main_v81
  generalize val_main_v80 (F := F) x9 = y
  exact broadcastInDim_apply _ bcast_S1x64_S100000x64_0_1 y i (idx_main_v81 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v82 : (⟨S100000x64, .f32⟩ : BufTy).Contents (Elt F) :=
  addf (val_main_v79 (F := F) x0 x1 x4 x5 x6 x7 x8) (val_main_v81 (F := F) x9)

theorem val_main_v82_apply (i : S100000x64.Idx) :
    val_main_v82 (F := F) x0 x1 x4 x5 x6 x7 x8 x9 i = FloatOps.addf (val_main_v79 (F := F) x0 x1 x4 x5 x6 x7 x8 i) (val_main_v81 (F := F) x9 i) := rfl

def val_main_cst_15 : (⟨S_, .f32⟩ : BufTy).Contents (Elt F) :=
  constant S_ .f32 0x00000000#32

theorem val_main_cst_15_apply (i : S_.Idx) :
    val_main_cst_15 (F := F) i = FloatOps.ofBits .f32 0x00000000#32 := rfl

def val_main_v83 : (⟨S128x64, .f32⟩ : BufTy).Contents (Elt F) :=
  broadcastInDim S128x64 ![] bcast_S_S128x64 (val_main_cst_15 (F := F))

abbrev idx_main_v83 (i : S128x64.Idx) : S_.Idx := fun a => a.elim0

theorem val_main_v83_apply (i : S128x64.Idx) :
    val_main_v83 (F := F) i = val_main_cst_15 (F := F) (idx_main_v83 i) := by
  unfold val_main_v83
  generalize val_main_cst_15 (F := F) = y
  exact broadcastInDim_apply _ bcast_S_S128x64 y i (idx_main_v83 i) (fun a => a.elim0)

def val_main_v84 : (⟨S100000x1, .i32⟩ : BufTy).Contents (Elt F) :=
  broadcastInDim S100000x1 ![0] bcast_S100000_S100000x1_0 (x2)

abbrev idx_main_v84 (i : S100000x1.Idx) : S100000.Idx := fun a => match a with
  | ⟨0, _⟩ => ⟨(i 0).val, (i 0).isLt⟩

theorem val_main_v84_apply (i : S100000x1.Idx) :
    val_main_v84 (F := F) x2 i = x2 (idx_main_v84 i) := by
  unfold val_main_v84
  exact broadcastInDim_apply _ bcast_S100000_S100000x1_0 x2 i (idx_main_v84 i) (fun a => match a with
    | ⟨0, _⟩ => by show (i 0).val = if (100000 : Nat) = 1 then 0 else (i 0).val; rw [if_neg (by decide)])

def val_main_v85 : (⟨S128x64, .f32⟩ : BufTy).Contents (Elt F) :=
  Host.scatterAdd scatter_S128x64_S100000x1_S100000x64_1_0_0_1 (val_main_v83 (F := F)) (val_main_v84 (F := F) x2) (val_main_v82 (F := F) x0 x1 x4 x5 x6 x7 x8 x9)

def val_main_cst_16 : (⟨S_, .f32⟩ : BufTy).Contents (Elt F) :=
  constant S_ .f32 0x3F800000#32

theorem val_main_cst_16_apply (i : S_.Idx) :
    val_main_cst_16 (F := F) i = FloatOps.ofBits .f32 0x3F800000#32 := rfl

def val_main_v86 : (⟨S100000, .f32⟩ : BufTy).Contents (Elt F) :=
  broadcastInDim S100000 ![] bcast_S_S100000 (val_main_cst_16 (F := F))

abbrev idx_main_v86 (i : S100000.Idx) : S_.Idx := fun a => a.elim0

theorem val_main_v86_apply (i : S100000.Idx) :
    val_main_v86 (F := F) i = val_main_cst_16 (F := F) (idx_main_v86 i) := by
  unfold val_main_v86
  generalize val_main_cst_16 (F := F) = y
  exact broadcastInDim_apply _ bcast_S_S100000 y i (idx_main_v86 i) (fun a => a.elim0)

def val_main_cst_17 : (⟨S_, .f32⟩ : BufTy).Contents (Elt F) :=
  constant S_ .f32 0x00000000#32

theorem val_main_cst_17_apply (i : S_.Idx) :
    val_main_cst_17 (F := F) i = FloatOps.ofBits .f32 0x00000000#32 := rfl

def val_main_v87 : (⟨S128, .f32⟩ : BufTy).Contents (Elt F) :=
  broadcastInDim S128 ![] bcast_S_S128 (val_main_cst_17 (F := F))

abbrev idx_main_v87 (i : S128.Idx) : S_.Idx := fun a => a.elim0

theorem val_main_v87_apply (i : S128.Idx) :
    val_main_v87 (F := F) i = val_main_cst_17 (F := F) (idx_main_v87 i) := by
  unfold val_main_v87
  generalize val_main_cst_17 (F := F) = y
  exact broadcastInDim_apply _ bcast_S_S128 y i (idx_main_v87 i) (fun a => a.elim0)

def val_main_v88 : (⟨S100000x1, .i32⟩ : BufTy).Contents (Elt F) :=
  broadcastInDim S100000x1 ![0] bcast_S100000_S100000x1_0 (x2)

def val_main_v89 : (⟨S128, .f32⟩ : BufTy).Contents (Elt F) :=
  Host.scatterAdd scatter_S128_S100000x1_S100000_n_0_0_1 (val_main_v87 (F := F)) (val_main_v88 (F := F) x2) (val_main_v86 (F := F))

def val_main_cst_18 : (⟨S_, .f32⟩ : BufTy).Contents (Elt F) :=
  constant S_ .f32 0x3F800000#32

theorem val_main_cst_18_apply (i : S_.Idx) :
    val_main_cst_18 (F := F) i = FloatOps.ofBits .f32 0x3F800000#32 := rfl

def val_main_v90 : (⟨S128, .f32⟩ : BufTy).Contents (Elt F) :=
  broadcastInDim S128 ![] bcast_S_S128 (val_main_cst_18 (F := F))

abbrev idx_main_v90 (i : S128.Idx) : S_.Idx := fun a => a.elim0

theorem val_main_v90_apply (i : S128.Idx) :
    val_main_v90 (F := F) i = val_main_cst_18 (F := F) (idx_main_v90 i) := by
  unfold val_main_v90
  generalize val_main_cst_18 (F := F) = y
  exact broadcastInDim_apply _ bcast_S_S128 y i (idx_main_v90 i) (fun a => a.elim0)

def val_main_v91 : (⟨S128, .f32⟩ : BufTy).Contents (Elt F) :=
  maximumf (val_main_v89 (F := F) x2) (val_main_v90 (F := F))

theorem val_main_v91_apply (i : S128.Idx) :
    val_main_v91 (F := F) x2 i = FloatOps.maximumf (val_main_v89 (F := F) x2 i) (val_main_v90 (F := F) i) := rfl

def val_main_v92 : (⟨S128x1, .f32⟩ : BufTy).Contents (Elt F) :=
  broadcastInDim S128x1 ![0] bcast_S128_S128x1_0 (val_main_v91 (F := F) x2)

abbrev idx_main_v92 (i : S128x1.Idx) : S128.Idx := fun a => match a with
  | ⟨0, _⟩ => ⟨(i 0).val, (i 0).isLt⟩

theorem val_main_v92_apply (i : S128x1.Idx) :
    val_main_v92 (F := F) x2 i = val_main_v91 (F := F) x2 (idx_main_v92 i) := by
  unfold val_main_v92
  generalize val_main_v91 (F := F) x2 = y
  exact broadcastInDim_apply _ bcast_S128_S128x1_0 y i (idx_main_v92 i) (fun a => match a with
    | ⟨0, _⟩ => by show (i 0).val = if (128 : Nat) = 1 then 0 else (i 0).val; rw [if_neg (by decide)])

def val_main_v93 : (⟨S128x64, .f32⟩ : BufTy).Contents (Elt F) :=
  broadcastInDim S128x64 ![0, 1] bcast_S128x1_S128x64_0_1 (val_main_v92 (F := F) x2)

abbrev idx_main_v93 (i : S128x64.Idx) : S128x1.Idx := fun a => match a with
  | ⟨0, _⟩ => ⟨(i 0).val, (i 0).isLt⟩
  | ⟨1, _⟩ => ⟨0, Nat.one_pos⟩

theorem val_main_v93_apply (i : S128x64.Idx) :
    val_main_v93 (F := F) x2 i = val_main_v92 (F := F) x2 (idx_main_v93 i) := by
  unfold val_main_v93
  generalize val_main_v92 (F := F) x2 = y
  exact broadcastInDim_apply _ bcast_S128x1_S128x64_0_1 y i (idx_main_v93 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v94 : (⟨S128x64, .f32⟩ : BufTy).Contents (Elt F) :=
  Host.divf (val_main_v85 (F := F) x0 x1 x2 x4 x5 x6 x7 x8 x9) (val_main_v93 (F := F) x2)

theorem val_main_v94_apply (i : S128x64.Idx) :
    val_main_v94 (F := F) x0 x1 x2 x4 x5 x6 x7 x8 x9 i = FloatOps.hostDivf (val_main_v85 (F := F) x0 x1 x2 x4 x5 x6 x7 x8 x9 i) (val_main_v93 (F := F) x2 i) := rfl

def val_main_v95 : (⟨S128x128, .f32⟩ : BufTy).Contents (Elt F) :=
  concatenate S128x128 1 [⟨S128x64, (val_main_v94 (F := F) x0 x1 x2 x4 x5 x6 x7 x8 x9)⟩, ⟨S128x64, (x3)⟩] concatenates_S128x64_S128x64_S128x128_d1

def val_main_v96 : (⟨S128x5, .f32⟩ : BufTy).Contents (Elt F) :=
  Host.dotGeneral dot_S128x128_S128x5_S128x5_1_0_0_1_n_n none (val_main_v95 (F := F) x0 x1 x2 x3 x4 x5 x6 x7 x8 x9) (x10)

theorem lhs_main_v96_0 (i : S128x5.Idx) (q : dot_S128x128_S128x5_S128x5_1_0_0_1_n_n.contr.Idx) :
    (dot_S128x128_S128x5_S128x5_1_0_0_1_n_n.lhsIdx i q 0).val = (i 0).val := by
  unfold DotDims.lhsIdx
  rw [dif_neg (show ¬(0 : Fin S128x128.rank) ∈ dot_S128x128_S128x5_S128x5_1_0_0_1_n_n.lhsBatch by decide), dif_pos (show (0 : Fin S128x128.rank) ∈ dot_S128x128_S128x5_S128x5_1_0_0_1_n_n.lhsNonContracting by decide)]
  rfl

theorem lhs_main_v96_1 (i : S128x5.Idx) (q : dot_S128x128_S128x5_S128x5_1_0_0_1_n_n.contr.Idx) :
    (dot_S128x128_S128x5_S128x5_1_0_0_1_n_n.lhsIdx i q 1).val = (q ⟨0, by decide⟩).val :=
  dot_S128x128_S128x5_S128x5_1_0_0_1_n_n.lhsIdx_val_of_single rfl i q

theorem rhs_main_v96_0 (i : S128x5.Idx) (q : dot_S128x128_S128x5_S128x5_1_0_0_1_n_n.contr.Idx) :
    (dot_S128x128_S128x5_S128x5_1_0_0_1_n_n.rhsIdx i q 0).val = (q ⟨0, by decide⟩).val :=
  dot_S128x128_S128x5_S128x5_1_0_0_1_n_n.rhsIdx_val_of_single rfl i q

theorem rhs_main_v96_1 (i : S128x5.Idx) (q : dot_S128x128_S128x5_S128x5_1_0_0_1_n_n.contr.Idx) :
    (dot_S128x128_S128x5_S128x5_1_0_0_1_n_n.rhsIdx i q 1).val = (i 1).val := by
  unfold DotDims.rhsIdx
  rw [dif_neg (show ¬(1 : Fin S128x5.rank) ∈ dot_S128x128_S128x5_S128x5_1_0_0_1_n_n.rhsBatch by decide), dif_pos (show (1 : Fin S128x5.rank) ∈ dot_S128x128_S128x5_S128x5_1_0_0_1_n_n.rhsNonContracting by decide)]
  rfl

abbrev lidx_main_v96 (i : S128x5.Idx) (k : Fin 128) : S128x128.Idx := fun a => match a with
  | ⟨0, _⟩ => ⟨(i 0).val, (i 0).isLt⟩
  | ⟨1, _⟩ => ⟨k.val, k.isLt⟩

abbrev ridx_main_v96 (i : S128x5.Idx) (k : Fin 128) : S128x5.Idx := fun a => match a with
  | ⟨0, _⟩ => ⟨k.val, k.isLt⟩
  | ⟨1, _⟩ => ⟨(i 1).val, (i 1).isLt⟩

theorem val_main_v96_apply (x0 : (⟨S100000x2, .f32⟩ : BufTy).Contents (Elt Ideal)) (x1 : (⟨S2x1000000, .i32⟩ : BufTy).Contents (Elt Ideal)) (x2 : (⟨S100000, .i32⟩ : BufTy).Contents (Elt Ideal)) (x3 : (⟨S128x64, .f32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S128x5, .f32⟩ : BufTy).Contents (Elt Ideal)) (i : S128x5.Idx) :
    val_main_v96 (F := Ideal) x0 x1 x2 x3 x4 x5 x6 x7 x8 x9 x10 i = ∑ k : Fin 128, (val_main_v95 (F := Ideal) x0 x1 x2 x3 x4 x5 x6 x7 x8 x9) (lidx_main_v96 i k) * x10 (ridx_main_v96 i k) := by
  unfold val_main_v96
  generalize val_main_v95 (F := Ideal) x0 x1 x2 x3 x4 x5 x6 x7 x8 x9 = y0
  simp only [Host.dotGeneral]
  rw [Ideal.dotGeneral_apply, ← Equiv.sum_comp (ValueIdx.contrEquiv1 dot_S128x128_S128x5_S128x5_1_0_0_1_n_n 128 rfl rfl).symm]
  refine Finset.sum_congr rfl fun k _ => ?_
  have hk := ValueIdx.contrEquiv1_symm_val dot_S128x128_S128x5_S128x5_1_0_0_1_n_n 128 rfl rfl k
  have el : dot_S128x128_S128x5_S128x5_1_0_0_1_n_n.lhsIdx i ((ValueIdx.contrEquiv1 dot_S128x128_S128x5_S128x5_1_0_0_1_n_n 128 rfl rfl).symm k) = lidx_main_v96 i k := funext fun a => Fin.ext (by
    match a with
    | ⟨0, _⟩ => exact lhs_main_v96_0 _ _
    | ⟨1, _⟩ => exact (lhs_main_v96_1 _ _).trans hk)
  have er : dot_S128x128_S128x5_S128x5_1_0_0_1_n_n.rhsIdx i ((ValueIdx.contrEquiv1 dot_S128x128_S128x5_S128x5_1_0_0_1_n_n 128 rfl rfl).symm k) = ridx_main_v96 i k := funext fun a => Fin.ext (by
    match a with
    | ⟨0, _⟩ => exact (rhs_main_v96_0 _ _).trans hk
    | ⟨1, _⟩ => exact rhs_main_v96_1 _ _)
  rw [el, er]

def val_main_v97 : (⟨S1x5, .f32⟩ : BufTy).Contents (Elt F) :=
  broadcastInDim S1x5 ![1] bcast_S5_S1x5_1 (x11)

abbrev idx_main_v97 (i : S1x5.Idx) : S5.Idx := fun a => match a with
  | ⟨0, _⟩ => ⟨(i 1).val, (i 1).isLt⟩

theorem val_main_v97_apply (i : S1x5.Idx) :
    val_main_v97 (F := F) x11 i = x11 (idx_main_v97 i) := by
  unfold val_main_v97
  exact broadcastInDim_apply _ bcast_S5_S1x5_1 x11 i (idx_main_v97 i) (fun a => match a with
    | ⟨0, _⟩ => by show (i 1).val = if (5 : Nat) = 1 then 0 else (i 1).val; rw [if_neg (by decide)])

def val_main_v98 : (⟨S128x5, .f32⟩ : BufTy).Contents (Elt F) :=
  broadcastInDim S128x5 ![0, 1] bcast_S1x5_S128x5_0_1 (val_main_v97 (F := F) x11)

abbrev idx_main_v98 (i : S128x5.Idx) : S1x5.Idx := fun a => match a with
  | ⟨0, _⟩ => ⟨0, Nat.one_pos⟩
  | ⟨1, _⟩ => ⟨(i 1).val, (i 1).isLt⟩

theorem val_main_v98_apply (i : S128x5.Idx) :
    val_main_v98 (F := F) x11 i = val_main_v97 (F := F) x11 (idx_main_v98 i) := by
  unfold val_main_v98
  generalize val_main_v97 (F := F) x11 = y
  exact broadcastInDim_apply _ bcast_S1x5_S128x5_0_1 y i (idx_main_v98 i) (fun a => match a with
    | ⟨0, _⟩ => by show 0 = if (1 : Nat) = 1 then 0 else (i 0).val; rw [if_pos rfl]
    | ⟨1, _⟩ => by show (i 1).val = if (5 : Nat) = 1 then 0 else (i 1).val; rw [if_neg (by decide)])

def val_main_v99 : (⟨S128x5, .f32⟩ : BufTy).Contents (Elt F) :=
  addf (val_main_v96 (F := F) x0 x1 x2 x3 x4 x5 x6 x7 x8 x9 x10) (val_main_v98 (F := F) x11)

theorem val_main_v99_apply (i : S128x5.Idx) :
    val_main_v99 (F := F) x0 x1 x2 x3 x4 x5 x6 x7 x8 x9 x10 x11 i = FloatOps.addf (val_main_v96 (F := F) x0 x1 x2 x3 x4 x5 x6 x7 x8 x9 x10 i) (val_main_v98 (F := F) x11 i) := rfl

def val_main_call3_cst : (⟨S_, .f32⟩ : BufTy).Contents (Elt F) :=
  constant S_ .f32 0xFF800000#32

def val_main_call3_v0 : (⟨S128, .f32⟩ : BufTy).Contents (Elt F) :=
  Host.reduce FloatOps.maximumf (val_main_v99 (F := F) x0 x1 x2 x3 x4 x5 x6 x7 x8 x9 x10 x11) (val_main_call3_cst (F := F)) reducesTo_S128x5_S128_d1 h_S_

def val_main_call3_cst_0 : (⟨S_, .f32⟩ : BufTy).Contents (Elt F) :=
  constant S_ .f32 0xFF800000#32

theorem val_main_call3_cst_0_apply (i : S_.Idx) :
    val_main_call3_cst_0 (F := F) i = FloatOps.ofBits .f32 0xFF800000#32 := rfl

def val_main_call3_v1 : (⟨S128, .f32⟩ : BufTy).Contents (Elt F) :=
  broadcastInDim S128 ![] bcast_S_S128 (val_main_call3_cst_0 (F := F))

abbrev idx_main_call3_v1 (i : S128.Idx) : S_.Idx := fun a => a.elim0

theorem val_main_call3_v1_apply (i : S128.Idx) :
    val_main_call3_v1 (F := F) i = val_main_call3_cst_0 (F := F) (idx_main_call3_v1 i) := by
  unfold val_main_call3_v1
  generalize val_main_call3_cst_0 (F := F) = y
  exact broadcastInDim_apply _ bcast_S_S128 y i (idx_main_call3_v1 i) (fun a => a.elim0)

def val_main_call3_v2 : (⟨S128, .f32⟩ : BufTy).Contents (Elt F) :=
  maximumf (val_main_call3_v1 (F := F)) (val_main_call3_v0 (F := F) x0 x1 x2 x3 x4 x5 x6 x7 x8 x9 x10 x11)

theorem val_main_call3_v2_apply (i : S128.Idx) :
    val_main_call3_v2 (F := F) x0 x1 x2 x3 x4 x5 x6 x7 x8 x9 x10 x11 i = FloatOps.maximumf (val_main_call3_v1 (F := F) i) (val_main_call3_v0 (F := F) x0 x1 x2 x3 x4 x5 x6 x7 x8 x9 x10 x11 i) := rfl

def val_main_call3_v3 : (⟨S128x1, .f32⟩ : BufTy).Contents (Elt F) :=
  broadcastInDim S128x1 ![0] bcast_S128_S128x1_0 (val_main_call3_v2 (F := F) x0 x1 x2 x3 x4 x5 x6 x7 x8 x9 x10 x11)

abbrev idx_main_call3_v3 (i : S128x1.Idx) : S128.Idx := fun a => match a with
  | ⟨0, _⟩ => ⟨(i 0).val, (i 0).isLt⟩

theorem val_main_call3_v3_apply (i : S128x1.Idx) :
    val_main_call3_v3 (F := F) x0 x1 x2 x3 x4 x5 x6 x7 x8 x9 x10 x11 i = val_main_call3_v2 (F := F) x0 x1 x2 x3 x4 x5 x6 x7 x8 x9 x10 x11 (idx_main_call3_v3 i) := by
  unfold val_main_call3_v3
  generalize val_main_call3_v2 (F := F) x0 x1 x2 x3 x4 x5 x6 x7 x8 x9 x10 x11 = y
  exact broadcastInDim_apply _ bcast_S128_S128x1_0 y i (idx_main_call3_v3 i) (fun a => match a with
    | ⟨0, _⟩ => by show (i 0).val = if (128 : Nat) = 1 then 0 else (i 0).val; rw [if_neg (by decide)])

def val_main_call3_v4 : (⟨S128x5, .f32⟩ : BufTy).Contents (Elt F) :=
  broadcastInDim S128x5 ![0, 1] bcast_S128x1_S128x5_0_1 (val_main_call3_v3 (F := F) x0 x1 x2 x3 x4 x5 x6 x7 x8 x9 x10 x11)

abbrev idx_main_call3_v4 (i : S128x5.Idx) : S128x1.Idx := fun a => match a with
  | ⟨0, _⟩ => ⟨(i 0).val, (i 0).isLt⟩
  | ⟨1, _⟩ => ⟨0, Nat.one_pos⟩

theorem val_main_call3_v4_apply (i : S128x5.Idx) :
    val_main_call3_v4 (F := F) x0 x1 x2 x3 x4 x5 x6 x7 x8 x9 x10 x11 i = val_main_call3_v3 (F := F) x0 x1 x2 x3 x4 x5 x6 x7 x8 x9 x10 x11 (idx_main_call3_v4 i) := by
  unfold val_main_call3_v4
  generalize val_main_call3_v3 (F := F) x0 x1 x2 x3 x4 x5 x6 x7 x8 x9 x10 x11 = y
  exact broadcastInDim_apply _ bcast_S128x1_S128x5_0_1 y i (idx_main_call3_v4 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_call3_v5 : (⟨S128x5, .f32⟩ : BufTy).Contents (Elt F) :=
  subf (val_main_v99 (F := F) x0 x1 x2 x3 x4 x5 x6 x7 x8 x9 x10 x11) (val_main_call3_v4 (F := F) x0 x1 x2 x3 x4 x5 x6 x7 x8 x9 x10 x11)

theorem val_main_call3_v5_apply (i : S128x5.Idx) :
    val_main_call3_v5 (F := F) x0 x1 x2 x3 x4 x5 x6 x7 x8 x9 x10 x11 i = FloatOps.subf (val_main_v99 (F := F) x0 x1 x2 x3 x4 x5 x6 x7 x8 x9 x10 x11 i) (val_main_call3_v4 (F := F) x0 x1 x2 x3 x4 x5 x6 x7 x8 x9 x10 x11 i) := rfl

def val_main_call3_v6 : (⟨S128x5, .f32⟩ : BufTy).Contents (Elt F) :=
  Host.exp (val_main_call3_v5 (F := F) x0 x1 x2 x3 x4 x5 x6 x7 x8 x9 x10 x11)

theorem val_main_call3_v6_apply (i : S128x5.Idx) :
    val_main_call3_v6 (F := F) x0 x1 x2 x3 x4 x5 x6 x7 x8 x9 x10 x11 i = FloatOps.hostUnary .exp (val_main_call3_v5 (F := F) x0 x1 x2 x3 x4 x5 x6 x7 x8 x9 x10 x11 i) := rfl

def val_main_call3_cst_1 : (⟨S_, .f32⟩ : BufTy).Contents (Elt F) :=
  constant S_ .f32 0x00000000#32

theorem val_main_call3_cst_1_apply (i : S_.Idx) :
    val_main_call3_cst_1 (F := F) i = FloatOps.ofBits .f32 0x00000000#32 := rfl

def val_main_call3_v7 : (⟨S128, .f32⟩ : BufTy).Contents (Elt F) :=
  Host.reduceAdd (val_main_call3_v6 (F := F) x0 x1 x2 x3 x4 x5 x6 x7 x8 x9 x10 x11) (val_main_call3_cst_1 (F := F)) reducesTo_S128x5_S128_d1 h_S_

abbrev idx_main_call3_v7 (i : S128.Idx) (k : Fin 5) : S128x5.Idx := fun a => match a with
  | ⟨0, _⟩ => ⟨(i 0).val, (i 0).isLt⟩
  | ⟨1, _⟩ => ⟨k.val, k.isLt⟩

theorem val_main_call3_v7_apply (x0 : (⟨S100000x2, .f32⟩ : BufTy).Contents (Elt Ideal)) (x1 : (⟨S2x1000000, .i32⟩ : BufTy).Contents (Elt Ideal)) (x2 : (⟨S100000, .i32⟩ : BufTy).Contents (Elt Ideal)) (x3 : (⟨S128x64, .f32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S128x5, .f32⟩ : BufTy).Contents (Elt Ideal)) (x11 : (⟨S5, .f32⟩ : BufTy).Contents (Elt Ideal)) (i : S128.Idx) :
    val_main_call3_v7 (F := Ideal) x0 x1 x2 x3 x4 x5 x6 x7 x8 x9 x10 x11 i = (val_main_call3_cst_1 (F := Ideal)) (Shape.Idx.first h_S_) + ∑ k : Fin 5, (val_main_call3_v6 (F := Ideal) x0 x1 x2 x3 x4 x5 x6 x7 x8 x9 x10 x11) (idx_main_call3_v7 i k) := by
  unfold val_main_call3_v7
  generalize val_main_call3_v6 (F := Ideal) x0 x1 x2 x3 x4 x5 x6 x7 x8 x9 x10 x11 = y0
  simp only [Host.reduceAdd, Ideal.hostReduceAdd_def]
  rw [Ideal.hostReduceAdd_single reducesTo_S128x5_S128_d1 (by decide)]
  refine congrArg (_ + ·) (Finset.sum_congr rfl fun k _ => ?_)
  exact congrArg y0 (funext fun a => Fin.ext (by match a with | ⟨0, _⟩ => rfl | ⟨1, _⟩ => rfl))

def val_main_call3_v8 : (⟨S128x1, .f32⟩ : BufTy).Contents (Elt F) :=
  broadcastInDim S128x1 ![0] bcast_S128_S128x1_0 (val_main_call3_v7 (F := F) x0 x1 x2 x3 x4 x5 x6 x7 x8 x9 x10 x11)

abbrev idx_main_call3_v8 (i : S128x1.Idx) : S128.Idx := fun a => match a with
  | ⟨0, _⟩ => ⟨(i 0).val, (i 0).isLt⟩

theorem val_main_call3_v8_apply (i : S128x1.Idx) :
    val_main_call3_v8 (F := F) x0 x1 x2 x3 x4 x5 x6 x7 x8 x9 x10 x11 i = val_main_call3_v7 (F := F) x0 x1 x2 x3 x4 x5 x6 x7 x8 x9 x10 x11 (idx_main_call3_v8 i) := by
  unfold val_main_call3_v8
  generalize val_main_call3_v7 (F := F) x0 x1 x2 x3 x4 x5 x6 x7 x8 x9 x10 x11 = y
  exact broadcastInDim_apply _ bcast_S128_S128x1_0 y i (idx_main_call3_v8 i) (fun a => match a with
    | ⟨0, _⟩ => by show (i 0).val = if (128 : Nat) = 1 then 0 else (i 0).val; rw [if_neg (by decide)])

def val_main_call3_v9 : (⟨S128x1, .f32⟩ : BufTy).Contents (Elt F) :=
  Host.log (val_main_call3_v8 (F := F) x0 x1 x2 x3 x4 x5 x6 x7 x8 x9 x10 x11)

theorem val_main_call3_v9_apply (i : S128x1.Idx) :
    val_main_call3_v9 (F := F) x0 x1 x2 x3 x4 x5 x6 x7 x8 x9 x10 x11 i = FloatOps.hostUnary .log (val_main_call3_v8 (F := F) x0 x1 x2 x3 x4 x5 x6 x7 x8 x9 x10 x11 i) := rfl

def val_main_call3_v10 : (⟨S128x5, .f32⟩ : BufTy).Contents (Elt F) :=
  broadcastInDim S128x5 ![0, 1] bcast_S128x1_S128x5_0_1 (val_main_call3_v9 (F := F) x0 x1 x2 x3 x4 x5 x6 x7 x8 x9 x10 x11)

abbrev idx_main_call3_v10 (i : S128x5.Idx) : S128x1.Idx := fun a => match a with
  | ⟨0, _⟩ => ⟨(i 0).val, (i 0).isLt⟩
  | ⟨1, _⟩ => ⟨0, Nat.one_pos⟩

theorem val_main_call3_v10_apply (i : S128x5.Idx) :
    val_main_call3_v10 (F := F) x0 x1 x2 x3 x4 x5 x6 x7 x8 x9 x10 x11 i = val_main_call3_v9 (F := F) x0 x1 x2 x3 x4 x5 x6 x7 x8 x9 x10 x11 (idx_main_call3_v10 i) := by
  unfold val_main_call3_v10
  generalize val_main_call3_v9 (F := F) x0 x1 x2 x3 x4 x5 x6 x7 x8 x9 x10 x11 = y
  exact broadcastInDim_apply _ bcast_S128x1_S128x5_0_1 y i (idx_main_call3_v10 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v100 : (⟨S128x5, .f32⟩ : BufTy).Contents (Elt F) :=
  subf (val_main_call3_v5 (F := F) x0 x1 x2 x3 x4 x5 x6 x7 x8 x9 x10 x11) (val_main_call3_v10 (F := F) x0 x1 x2 x3 x4 x5 x6 x7 x8 x9 x10 x11)

theorem val_main_v100_apply (i : S128x5.Idx) :
    val_main_v100 (F := F) x0 x1 x2 x3 x4 x5 x6 x7 x8 x9 x10 x11 i = FloatOps.subf (val_main_call3_v5 (F := F) x0 x1 x2 x3 x4 x5 x6 x7 x8 x9 x10 x11 i) (val_main_call3_v10 (F := F) x0 x1 x2 x3 x4 x5 x6 x7 x8 x9 x10 x11 i) := rfl

theorem val_main_v100_eq (m : (ℓ : Loc nD τ sig) → Buf (Elt F) ℓ) (c : Dev nD) :
    Cert.ReferenceIdeal.ValueP.res_main_v100 m c = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v100; rfl

end Cert.ReferenceIdeal.ReadP

end
-- ==== Proof.RefStages.lean ====
import proofs.«430252_j4990751998361_2_alg».proof.Proof.RefReadP
import proofs.«430252_j4990751998361_2_alg».proof.Proof.Spec
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.StableHlo.Predicate

set_option maxRecDepth 16384

noncomputable section

namespace Cert.ReferenceIdeal.Stg

open Cert.ReferenceIdeal Cert.ReferenceIdeal.Gen Cert.ReferenceIdeal.ReadP Cert.Spec Idealize.ShloMosaic Idealize.ShloMosaic.ValueIdx

theorem lin1_stage (x0 : (⟨S100000x2, .f32⟩ : BufTy).Contents (Elt Ideal)) (x4 : (⟨S2x64, .f32⟩ : BufTy).Contents (Elt Ideal)) :
    val_main_v30 (F := Ideal) x0 x4 = Spec.lin2 x0 x4 := by
  refine Spec.ext_ix2 fun r j => ?_
  rw [val_main_v30_apply, Spec.lin2_apply]
  unfold Spec.lin2At
  refine Finset.sum_congr rfl fun k _ => ?_
  have el : lidx_main_v30 (ix2 r j) k = ix2 r k :=
    funext fun a => Fin.ext (by match a with | ⟨0, _⟩ => rfl | ⟨1, _⟩ => rfl)
  have er : ridx_main_v30 (ix2 r j) k = ix2 k j :=
    funext fun a => Fin.ext (by match a with | ⟨0, _⟩ => rfl | ⟨1, _⟩ => rfl)
  rw [el, er]

theorem lin2_stage (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) :
    val_main_v48 (F := Ideal) x0 x1 x4 x5 x6 = Spec.lin64 (val_main_v47 (F := Ideal) x0 x1 x4 x5) x6 := by
  refine Spec.ext_ix2 fun r j => ?_
  rw [val_main_v48_apply, Spec.lin64_apply]
  unfold Spec.lin64At
  refine Finset.sum_congr rfl fun k _ => ?_
  have el : lidx_main_v48 (ix2 r j) k = ix2 r k :=
    funext fun a => Fin.ext (by match a with | ⟨0, _⟩ => rfl | ⟨1, _⟩ => rfl)
  have er : ridx_main_v48 (ix2 r j) k = ix2 k j :=
    funext fun a => Fin.ext (by match a with | ⟨0, _⟩ => rfl | ⟨1, _⟩ => rfl)
  rw [el, er]

theorem lin3_stage (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v66 (F := Ideal) x0 x1 x4 x5 x6 x7 x8 = Spec.lin64 (val_main_v65 (F := Ideal) x0 x1 x4 x5 x6 x7) x8 := by
  refine Spec.ext_ix2 fun r j => ?_
  rw [val_main_v66_apply, Spec.lin64_apply]
  unfold Spec.lin64At
  refine Finset.sum_congr rfl fun k _ => ?_
  have el : lidx_main_v66 (ix2 r j) k = ix2 r k :=
    funext fun a => Fin.ext (by match a with | ⟨0, _⟩ => rfl | ⟨1, _⟩ => rfl)
  have er : ridx_main_v66 (ix2 r j) k = ix2 k j :=
    funext fun a => Fin.ext (by match a with | ⟨0, _⟩ => rfl | ⟨1, _⟩ => rfl)
  rw [el, er]

theorem bias1_stage (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) :
    val_main_v47 (F := Ideal) x0 x1 x4 x5
      = Spec.biasRelu (val_main_v43 (F := Ideal) x0 x1 x4) (val_main_v44 (F := Ideal) x5) := by
  refine Spec.ext_ix2 fun r j => ?_
  have e45 : idx_main_v45 (ix2 r j) = ix2 0 j :=
    funext fun a => Fin.ext (by match a with | ⟨0, _⟩ => rfl | ⟨1, _⟩ => rfl)
  rw [val_main_v47_apply, val_main_v46_apply, val_main_v45_apply, val_main_call1_v0_apply, val_main_call1_cst_apply,
    e45, Spec.biasRelu_apply]
  unfold Spec.biasReluAt
  simp only [Ideal.maximumf_def, Ideal.addf_def, Ideal.ofBits_def, Ideal.ofBits_zero_f32]

theorem bias2_stage (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v65 (F := Ideal) x0 x1 x4 x5 x6 x7
      = Spec.biasRelu (val_main_v61 (F := Ideal) x0 x1 x4 x5 x6) (val_main_v62 (F := Ideal) x7) := by
  refine Spec.ext_ix2 fun r j => ?_
  have e63 : idx_main_v63 (ix2 r j) = ix2 0 j :=
    funext fun a => Fin.ext (by match a with | ⟨0, _⟩ => rfl | ⟨1, _⟩ => rfl)
  rw [val_main_v65_apply, val_main_v64_apply, val_main_v63_apply, val_main_call2_v0_apply, val_main_call2_cst_apply,
    e63, Spec.biasRelu_apply]
  unfold Spec.biasReluAt
  simp only [Ideal.maximumf_def, Ideal.addf_def, Ideal.ofBits_def, Ideal.ofBits_zero_f32]

theorem bias3_stage (x0 : (⟨S100000x2, .f32⟩ : BufTy).Contents (Elt Ideal)) (x1 : (⟨S2x1000000, .i32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v82 (F := Ideal) x0 x1 x4 x5 x6 x7 x8 x9
      = Spec.bias (val_main_v79 (F := Ideal) x0 x1 x4 x5 x6 x7 x8) (val_main_v80 (F := Ideal) x9) := by
  refine Spec.ext_ix2 fun r j => ?_
  have e81 : idx_main_v81 (ix2 r j) = ix2 0 j :=
    funext fun a => Fin.ext (by match a with | ⟨0, _⟩ => rfl | ⟨1, _⟩ => rfl)
  rw [val_main_v82_apply, val_main_v81_apply, e81, Spec.bias_apply]
  unfold Spec.biasAt
  simp only [Ideal.addf_def]

abbrev SOp : Shape := ⟨2, ![128, 64]⟩
abbrev SIx : Shape := ⟨2, ![100000, 1]⟩
abbrev SUp : Shape := ⟨2, ![100000, 64]⟩

abbrev rowDims (wf : ScatterDims.WF SOp SIx SUp [1] [0] [0] 1) : ScatterDims SOp SIx SUp where
  updateWindowDims := [1]
  insertedWindowDims := [0]
  scatterDimsToOperandDims := [0]
  indexVectorDim := 1
  wf := wf

variable (wf : ScatterDims.WF SOp SIx SUp [1] [0] [0] 1)

theorem row_start0 (n : Fin 100000) (b : Fin 64) (idx : IVec SIx 32) :
    (rowDims wf).start (ix2 n b) idx 0 = (idx (ix2 n 0)).toInt := by
  unfold ScatterDims.start
  rw [dif_pos (show (0 : Fin SOp.rank) ∈ (rowDims wf).scatterDimsToOperandDims from List.mem_singleton.mpr rfl)]
  have hsi : (rowDims wf).siIdx (ix2 n b) ⟨List.idxOf (0 : Fin SOp.rank) (rowDims wf).scatterDimsToOperandDims,
      List.idxOf_lt_length_iff.2 (List.mem_singleton.mpr rfl)⟩ = ix2 n 0 := by
    funext c; refine Fin.ext ?_
    match c with
    | ⟨0, _⟩ => rfl
    | ⟨1, _⟩ => rfl
  rw [hsi]

theorem row_start1 (n : Fin 100000) (b : Fin 64) (idx : IVec SIx 32) :
    (rowDims wf).start (ix2 n b) idx 1 = 0 := by
  unfold ScatterDims.start
  rw [dif_neg (show ¬ (1 : Fin SOp.rank) ∈ ([0] : List (Fin SOp.rank)) by decide)]

theorem row_window0 (n : Fin 100000) (b : Fin 64) : (rowDims wf).window (ix2 n b) 0 = 0 := by
  unfold ScatterDims.window
  rw [dif_neg (show ¬ (0 : Fin SOp.rank) ∈ SOp.kept [0] by decide)]

theorem row_window1 (n : Fin 100000) (b : Fin 64) : (rowDims wf).window (ix2 n b) 1 = b.val := by
  unfold ScatterDims.window
  rw [dif_pos (show (1 : Fin SOp.rank) ∈ SOp.kept [0] by decide)]
  rfl

theorem row_result_iff (n : Fin 100000) (b : Fin 64) (idx : IVec SIx 32) (g : Fin 128) (k : Fin 64) :
    (rowDims wf).resultIdx? (ix2 n b) idx = some (ix2 g k) ↔ ((idx (ix2 n 0)).toInt = (g.val : Int) ∧ b = k) := by
  have s0 : (rowDims wf).start (ix2 n b) idx 0 + ((rowDims wf).window (ix2 n b) 0 : Nat) = (idx (ix2 n 0)).toInt := by
    rw [row_start0, row_window0]; simp
  have s1 : (rowDims wf).start (ix2 n b) idx 1 + ((rowDims wf).window (ix2 n b) 1 : Nat) = (b.val : Int) := by
    rw [row_start1, row_window1]; simp
  unfold ScatterDims.resultIdx?
  split
  · rename_i h
    rw [Option.some.injEq]
    constructor
    · intro e
      have e0 : ((rowDims wf).start (ix2 n b) idx 0 + ((rowDims wf).window (ix2 n b) 0 : Nat)).toNat = g.val :=
        congrArg Fin.val (congrFun e 0)
      have e1 : ((rowDims wf).start (ix2 n b) idx 1 + ((rowDims wf).window (ix2 n b) 1 : Nat)).toNat = k.val :=
        congrArg Fin.val (congrFun e 1)
      have h0 := (h 0).1
      rw [s0] at e0 h0
      rw [s1] at e1
      exact ⟨by omega, Fin.ext (by omega)⟩
    · rintro ⟨e0, e1⟩
      funext a; refine Fin.ext ?_
      match a with
      | ⟨0, _⟩ =>
        show ((rowDims wf).start (ix2 n b) idx 0 + ((rowDims wf).window (ix2 n b) 0 : Nat)).toNat = g.val
        rw [s0, e0]; simp
      | ⟨1, _⟩ =>
        show ((rowDims wf).start (ix2 n b) idx 1 + ((rowDims wf).window (ix2 n b) 1 : Nat)).toNat = k.val
        rw [s1, e1]; simp
  · rename_i h
    constructor
    · intro e; cases e
    · rintro ⟨e0, e1⟩
      exfalso; apply h
      intro a
      match a with
      | ⟨0, _⟩ =>
        show 0 ≤ (rowDims wf).start (ix2 n b) idx 0 + ((rowDims wf).window (ix2 n b) 0 : Nat)
          ∧ (rowDims wf).start (ix2 n b) idx 0 + ((rowDims wf).window (ix2 n b) 0 : Nat) < ((128 : Nat) : Int)
        rw [s0, e0]; have := g.isLt; omega
      | ⟨1, _⟩ =>
        show 0 ≤ (rowDims wf).start (ix2 n b) idx 1 + ((rowDims wf).window (ix2 n b) 1 : Nat)
          ∧ (rowDims wf).start (ix2 n b) idx 1 + ((rowDims wf).window (ix2 n b) 1 : Nat) < ((64 : Nat) : Int)
        rw [s1]; have := b.isLt; omega

theorem toInt_eq_iff (w : BitVec 32) (g : Fin 128) : w.toInt = (g.val : Int) ↔ w = BitVec.ofNat 32 g.val := by
  have hg : (BitVec.ofNat 32 g.val).toInt = (g.val : Int) :=
    StableHlo.Predicate.toInt_ofNat_small g.val (by have := g.isLt; omega)
  constructor
  · intro h; exact BitVec.eq_of_toInt_eq (h.trans hg.symm)
  · intro h; rw [h, hg]

theorem row_scatter_apply (x : SOp.Idx → EReal) (idx : IVec SIx 32) (upd : SUp.Idx → EReal) (g : Fin 128) (k : Fin 64) :
    Ideal.hostScatterAdd (rowDims wf) x idx upd (ix2 g k)
      = x (ix2 g k) + ∑ n : Fin 100000, (if idx (ix2 n 0) = BitVec.ofNat 32 g.val then 1 else 0) * upd (ix2 n k) := by
  unfold Ideal.hostScatterAdd
  refine congrArg (x (ix2 g k) + ·) ?_
  rw [Finset.sum_filter, sum_idx2]
  refine Finset.sum_congr rfl fun n _ => ?_
  by_cases hn : idx (ix2 n 0) = BitVec.ofNat 32 g.val
  · rw [if_pos hn, one_mul]
    rw [Finset.sum_eq_single k]
    · rw [if_pos ((row_result_iff wf n k idx g k).2 ⟨(toInt_eq_iff _ g).2 hn, rfl⟩)]
    · intro b _ hb
      rw [if_neg (fun h => hb ((row_result_iff wf n b idx g k).1 h).2)]
    · intro h; exact absurd (Finset.mem_univ k) h
  · rw [if_neg hn, zero_mul]
    refine Finset.sum_eq_zero fun b _ => ?_
    rw [if_neg (fun h => hn ((toInt_eq_iff _ g).1 ((row_result_iff wf n b idx g k).1 h).1))]

abbrev COp : Shape := ⟨1, ![128]⟩
abbrev CUp : Shape := ⟨1, ![100000]⟩

abbrev cntDims (wf' : ScatterDims.WF COp SIx CUp [] [0] [0] 1) : ScatterDims COp SIx CUp where
  updateWindowDims := []
  insertedWindowDims := [0]
  scatterDimsToOperandDims := [0]
  indexVectorDim := 1
  wf := wf'

variable (wf' : ScatterDims.WF COp SIx CUp [] [0] [0] 1)

theorem cnt_start0 (n : Fin 100000) (idx : IVec SIx 32) :
    (cntDims wf').start (ix1 n) idx 0 = (idx (ix2 n 0)).toInt := by
  unfold ScatterDims.start
  rw [dif_pos (show (0 : Fin COp.rank) ∈ (cntDims wf').scatterDimsToOperandDims from List.mem_singleton.mpr rfl)]
  have hsi : (cntDims wf').siIdx (ix1 n) ⟨List.idxOf (0 : Fin COp.rank) (cntDims wf').scatterDimsToOperandDims,
      List.idxOf_lt_length_iff.2 (List.mem_singleton.mpr rfl)⟩ = ix2 n 0 := by
    funext c; refine Fin.ext ?_
    match c with
    | ⟨0, _⟩ => rfl
    | ⟨1, _⟩ => rfl
  rw [hsi]

theorem cnt_window0 (n : Fin 100000) : (cntDims wf').window (ix1 n) 0 = 0 := by
  unfold ScatterDims.window
  rw [dif_neg (show ¬ (0 : Fin COp.rank) ∈ COp.kept [0] by decide)]

theorem cnt_result_iff (n : Fin 100000) (idx : IVec SIx 32) (g : Fin 128) :
    (cntDims wf').resultIdx? (ix1 n) idx = some (ix1 g) ↔ (idx (ix2 n 0)).toInt = (g.val : Int) := by
  have s0 : (cntDims wf').start (ix1 n) idx 0 + ((cntDims wf').window (ix1 n) 0 : Nat) = (idx (ix2 n 0)).toInt := by
    rw [cnt_start0, cnt_window0]; simp
  unfold ScatterDims.resultIdx?
  split
  · rename_i h
    rw [Option.some.injEq]
    constructor
    · intro e
      have e0 : ((cntDims wf').start (ix1 n) idx 0 + ((cntDims wf').window (ix1 n) 0 : Nat)).toNat = g.val :=
        congrArg Fin.val (congrFun e 0)
      have h0 := (h 0).1
      rw [s0] at e0 h0
      omega
    · intro e0
      funext a; refine Fin.ext ?_
      match a with
      | ⟨0, _⟩ =>
        show ((cntDims wf').start (ix1 n) idx 0 + ((cntDims wf').window (ix1 n) 0 : Nat)).toNat = g.val
        rw [s0, e0]; simp
  · rename_i h
    constructor
    · intro e; cases e
    · intro e0
      exfalso; apply h
      intro a
      match a with
      | ⟨0, _⟩ =>
        show 0 ≤ (cntDims wf').start (ix1 n) idx 0 + ((cntDims wf').window (ix1 n) 0 : Nat)
          ∧ (cntDims wf').start (ix1 n) idx 0 + ((cntDims wf').window (ix1 n) 0 : Nat) < ((128 : Nat) : Int)
        rw [s0, e0]; have := g.isLt; omega

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem cnt_scatter_apply (x : COp.Idx → EReal) (idx : IVec SIx 32) (upd : CUp.Idx → EReal) (g : Fin 128) :
    Ideal.hostScatterAdd (cntDims wf') x idx upd (ix1 g)
      = x (ix1 g) + ∑ n : Fin 100000, (if idx (ix2 n 0) = BitVec.ofNat 32 g.val then 1 else 0) * upd (ix1 n) := by
  unfold Ideal.hostScatterAdd
  refine congrArg (x (ix1 g) + ·) ?_
  rw [Finset.sum_filter, sum_idx1]
  refine Finset.sum_congr rfl fun n _ => ?_
  by_cases hn : idx (ix2 n 0) = BitVec.ofNat 32 g.val
  · rw [if_pos hn, one_mul, if_pos ((cnt_result_iff wf' n idx g).2 ((toInt_eq_iff _ g).2 hn))]
  · rw [if_neg hn, zero_mul, if_neg (fun h => hn ((toInt_eq_iff _ g).1 ((cnt_result_iff wf' n idx g).1 h)))]

abbrev SZ : Shape := ⟨2, ![128, 5]⟩
abbrev SG : Shape := ⟨1, ![128]⟩

theorem lift_col (h : SZ.Reduces [1] SG) (g : Fin 128) (k : Fin (SZ.size 1)) :
    h.lift (ix1 g) k = ix2 g (⟨k.val, k.isLt⟩ : Fin 5) := by
  funext c; apply Fin.ext
  fin_cases c <;> rfl

theorem negInf_bits : Ideal.ofBits .f32 0xFF800000#32 = ⊥ := by simp [Ideal.ofBits, Ideal.ieee]

theorem one_bits : Ideal.ofBits .f32 0x3F800000#32 = 1 := by simp [Ideal.ofBits, Ideal.ieee, -EReal.coe_mul]; norm_num

theorem rowmax_read (z : FVec Ideal SZ .f32) (h' : SZ.ReducesTo [1] SG) (hu : 0 < (⟨0, ![]⟩ : Shape).numel) (g : Fin 128) :
    Host.reduce FloatOps.maximumf z (constant (F := Ideal) (⟨0, ![]⟩ : Shape) .f32 0xFF800000#32) h' hu (ix1 g)
      = (Finset.univ : Finset (Fin 5)).fold max ⊥ (fun j => z (ix2 g j)) := by
  have h : SZ.Reduces [1] SG := by decide
  rw [Host.reduce_eq_fold_single FloatOps.maximumf z _ h' h hu]
  have hf : (z ∘ h.lift (ix1 g)) = fun k : Fin 5 => z (ix2 g k) := funext fun k => congrArg z (lift_col h g k)
  show Finset.fold max (Ideal.ofBits .f32 0xFF800000#32) (z ∘ h.lift (ix1 g)) (Finset.univ : Finset (Fin 5)) = _
  rw [hf, negInf_bits]
  rfl

section Head

variable (x0 : (⟨S100000x2, .f32⟩ : BufTy).Contents (Elt Ideal)) (x1 : (⟨S2x1000000, .i32⟩ : BufTy).Contents (Elt Ideal)) (x2 : (⟨S100000, .i32⟩ : BufTy).Contents (Elt Ideal)) (x3 : (⟨S128x64, .f32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S128x5, .f32⟩ : BufTy).Contents (Elt Ideal)) (x11 : (⟨S5, .f32⟩ : BufTy).Contents (Elt Ideal))

theorem v85_read (g : Fin 128) (k : Fin 64) :
    val_main_v85 (F := Ideal) x0 x1 x2 x4 x5 x6 x7 x8 x9 (ix2 g k) = Spec.sums (val_main_v82 (F := Ideal) x0 x1 x4 x5 x6 x7 x8 x9) (val_main_v84 (F := Ideal) x2) g k := by
  unfold val_main_v85
  generalize val_main_v82 (F := Ideal) x0 x1 x4 x5 x6 x7 x8 x9 = h
  generalize val_main_v84 (F := Ideal) x2 = b
  simp only [Host.scatterAdd, Ideal.hostScatterAdd_def]
  show Ideal.hostScatterAdd (rowDims _) (val_main_v83 (F := Ideal)) b h (ix2 g k) = _
  rw [row_scatter_apply, val_main_v83_apply, val_main_cst_15_apply]
  simp only [Ideal.ofBits_def, Ideal.ofBits_zero_f32, zero_add]
  rfl

theorem v89_read (g : Fin 128) :
    val_main_v89 (F := Ideal) x2 (ix1 g) = Spec.cnts (val_main_v84 (F := Ideal) x2) g := by
  unfold val_main_v89
  have e88 : val_main_v88 (F := Ideal) x2 = val_main_v84 (F := Ideal) x2 := rfl
  rw [e88]
  generalize val_main_v84 (F := Ideal) x2 = b
  simp only [Host.scatterAdd, Ideal.hostScatterAdd_def]
  show Ideal.hostScatterAdd (cntDims _) (val_main_v87 (F := Ideal)) b (val_main_v86 (F := Ideal)) (ix1 g) = _
  rw [cnt_scatter_apply, val_main_v87_apply, val_main_cst_17_apply]
  simp only [val_main_v86_apply, val_main_cst_16_apply, Ideal.ofBits_def, Ideal.ofBits_zero_f32, one_bits, zero_add, mul_one]
  rfl

theorem v94_read (g : Fin 128) (k : Fin 64) :
    val_main_v94 (F := Ideal) x0 x1 x2 x4 x5 x6 x7 x8 x9 (ix2 g k) = Spec.pooled (val_main_v82 (F := Ideal) x0 x1 x4 x5 x6 x7 x8 x9) (val_main_v84 (F := Ideal) x2) g k := by
  have e93 : idx_main_v93 (ix2 g k) = ix2 g 0 := funext fun a => Fin.ext (by match a with | ⟨0, _⟩ => rfl | ⟨1, _⟩ => rfl)
  have e92 : idx_main_v92 (ix2 g (0 : Fin 1)) = ix1 g := funext fun a => Fin.ext (by match a with | ⟨0, _⟩ => rfl)
  rw [val_main_v94_apply, v85_read, val_main_v93_apply, e93, val_main_v92_apply, e92, val_main_v91_apply, v89_read,
    val_main_v90_apply, val_main_cst_18_apply]
  simp only [Ideal.hostDivf_def, Ideal.maximumf_def, Ideal.ofBits_def, one_bits]
  rfl

theorem v95_read (g : Fin 128) (k : Fin 128) :
    val_main_v95 (F := Ideal) x0 x1 x2 x3 x4 x5 x6 x7 x8 x9 (ix2 g k) = Spec.cat (val_main_v82 (F := Ideal) x0 x1 x4 x5 x6 x7 x8 x9) (val_main_v84 (F := Ideal) x2) x3 g k := by
  unfold Spec.cat
  by_cases hk : k.val < 64
  · rw [dif_pos hk, ← v94_read]
    unfold val_main_v95
    exact concatenate_pair_apply_left (t := S128x128) (s₁ := S128x64) (s₂ := S128x64) 1 _ _ _ (ix2 g k) rfl
      (ix2 g (⟨k.val, hk⟩ : Fin 64))
      (fun b => match b with | ⟨0, _⟩ => rfl | ⟨1, _⟩ => rfl)
  · rw [dif_neg hk]
    unfold val_main_v95
    exact concatenate_pair_apply_right (t := S128x128) (s₁ := S128x64) (s₂ := S128x64) 1 _ _ _ (ix2 g k) rfl rfl
      (ix2 g (⟨k.val - 64, by have := k.isLt; omega⟩ : Fin 64))
      (fun b hb => match b, hb with | ⟨0, _⟩, _ => rfl | ⟨1, _⟩, hb => absurd rfl hb)
      (by show k.val - 64 + 64 = k.val; omega)

theorem v99_read (g : Fin 128) (j : Fin 5) :
    val_main_v99 (F := Ideal) x0 x1 x2 x3 x4 x5 x6 x7 x8 x9 x10 x11 (ix2 g j) = Spec.logits (val_main_v82 (F := Ideal) x0 x1 x4 x5 x6 x7 x8 x9) (val_main_v84 (F := Ideal) x2) x3 x10 (val_main_v97 (F := Ideal) x11) g j := by
  have e98 : idx_main_v98 (ix2 g j) = ix2 0 j := funext fun a => Fin.ext (by match a with | ⟨0, _⟩ => rfl | ⟨1, _⟩ => rfl)
  rw [val_main_v99_apply, val_main_v96_apply, val_main_v98_apply, e98]
  have hs : ∀ k : Fin 128,
      val_main_v95 (F := Ideal) x0 x1 x2 x3 x4 x5 x6 x7 x8 x9 (lidx_main_v96 (ix2 g j) k) * x10 (ridx_main_v96 (ix2 g j) k)
        = Spec.cat (val_main_v82 (F := Ideal) x0 x1 x4 x5 x6 x7 x8 x9) (val_main_v84 (F := Ideal) x2) x3 g k * x10 (ix2 k j) := by
    intro k
    have el : lidx_main_v96 (ix2 g j) k = ix2 g k := funext fun a => Fin.ext (by match a with | ⟨0, _⟩ => rfl | ⟨1, _⟩ => rfl)
    have er : ridx_main_v96 (ix2 g j) k = ix2 k j := funext fun a => Fin.ext (by match a with | ⟨0, _⟩ => rfl | ⟨1, _⟩ => rfl)
    rw [el, er, v95_read]
  unfold Spec.logits
  simp only [Ideal.addf_def, hs]

theorem rowmax_read_ref (g : Fin 128) :
    val_main_call3_v2 (F := Ideal) x0 x1 x2 x3 x4 x5 x6 x7 x8 x9 x10 x11 (ix1 g) = Spec.rowMax (fun j' => val_main_v99 (F := Ideal) x0 x1 x2 x3 x4 x5 x6 x7 x8 x9 x10 x11 (ix2 g j')) := by
  rw [val_main_call3_v2_apply, val_main_call3_v1_apply, val_main_call3_cst_0_apply]
  unfold val_main_call3_v0
  have hc : val_main_call3_cst (F := Ideal) = constant (F := Ideal) (⟨0, ![]⟩ : Shape) .f32 0xFF800000#32 := rfl
  rw [hc, rowmax_read]
  simp only [Ideal.maximumf_def, Ideal.ofBits_def, negInf_bits]
  unfold Spec.rowMax
  exact max_eq_right bot_le

theorem shifted_read (g : Fin 128) (j : Fin 5) :
    val_main_call3_v5 (F := Ideal) x0 x1 x2 x3 x4 x5 x6 x7 x8 x9 x10 x11 (ix2 g j)
      = val_main_v99 (F := Ideal) x0 x1 x2 x3 x4 x5 x6 x7 x8 x9 x10 x11 (ix2 g j) - Spec.rowMax (fun j' => val_main_v99 (F := Ideal) x0 x1 x2 x3 x4 x5 x6 x7 x8 x9 x10 x11 (ix2 g j')) := by
  have e4 : idx_main_call3_v4 (ix2 g j) = ix2 g 0 := funext fun a => Fin.ext (by match a with | ⟨0, _⟩ => rfl | ⟨1, _⟩ => rfl)
  have e3 : idx_main_call3_v3 (ix2 g (0 : Fin 1)) = ix1 g := funext fun a => Fin.ext (by match a with | ⟨0, _⟩ => rfl)
  rw [val_main_call3_v5_apply, val_main_call3_v4_apply, e4, val_main_call3_v3_apply, e3, rowmax_read_ref]
  rfl

theorem v100_read (g : Fin 128) (j : Fin 5) :
    val_main_v100 (F := Ideal) x0 x1 x2 x3 x4 x5 x6 x7 x8 x9 x10 x11 (ix2 g j) = Spec.logSoftmax (fun j' => val_main_v99 (F := Ideal) x0 x1 x2 x3 x4 x5 x6 x7 x8 x9 x10 x11 (ix2 g j')) j := by
  have e10 : idx_main_call3_v10 (ix2 g j) = ix2 g 0 := funext fun a => Fin.ext (by match a with | ⟨0, _⟩ => rfl | ⟨1, _⟩ => rfl)
  have e8 : idx_main_call3_v8 (ix2 g (0 : Fin 1)) = ix1 g := funext fun a => Fin.ext (by match a with | ⟨0, _⟩ => rfl)
  have e7 : ∀ k : Fin 5, idx_main_call3_v7 (ix1 g) k = ix2 g k := fun k => funext fun a => Fin.ext (by match a with | ⟨0, _⟩ => rfl | ⟨1, _⟩ => rfl)
  rw [val_main_v100_apply, val_main_call3_v10_apply, e10, val_main_call3_v9_apply, val_main_call3_v8_apply, e8,
    val_main_call3_v7_apply, val_main_call3_cst_1_apply, shifted_read]
  unfold Spec.logSoftmax
  simp only [e7, val_main_call3_v6_apply, shifted_read, Ideal.subf_def, Ideal.hostUnary_exp_def, Ideal.hostUnary_log_def,
    Ideal.ofBits_def, Ideal.ofBits_zero_f32, zero_add]

end Head

theorem pool_stage (x0 : (⟨S100000x2, .f32⟩ : BufTy).Contents (Elt Ideal)) (x1 : (⟨S2x1000000, .i32⟩ : BufTy).Contents (Elt Ideal)) (x2 : (⟨S100000, .i32⟩ : BufTy).Contents (Elt Ideal)) (x3 : (⟨S128x64, .f32⟩ : BufTy).Contents (Elt Ideal)) (x4 : (⟨S2x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S128x5, .f32⟩ : BufTy).Contents (Elt Ideal)) (x11 : (⟨S5, .f32⟩ : BufTy).Contents (Elt Ideal)) :
    val_main_v100 (F := Ideal) x0 x1 x2 x3 x4 x5 x6 x7 x8 x9 x10 x11
      = Spec.pool (val_main_v82 (F := Ideal) x0 x1 x4 x5 x6 x7 x8 x9) (val_main_v84 (F := Ideal) x2) x3 x10 (val_main_v97 (F := Ideal) x11) := by
  refine Spec.ext_ix2 fun g j => ?_
  rw [v100_read, Spec.pool_apply]
  unfold Spec.poolAt
  exact congrArg (fun z => Spec.logSoftmax z j) (funext fun j' => v99_read x0 x1 x2 x3 x4 x5 x6 x7 x8 x9 x10 x11 g j')

end Cert.ReferenceIdeal.Stg

end
-- ==== Proof.RefChains.lean ====
import proofs.«430252_j4990751998361_2_alg».proof.Proof.RefReadP
import proofs.«430252_j4990751998361_2_alg».proof.Proof.Chains

set_option maxRecDepth 16384

noncomputable section

namespace Cert.ReferenceIdeal.Hst

open Cert.ReferenceIdeal Cert.ReferenceIdeal.ReadP
open Idealize.ShloMosaic

variable {F : FTy → Type} [FloatOps F]

theorem src_eq (e : IVec S2x1000000 32) : val_main_v3 (F := F) e = Chains.srcOf e := rfl

theorem dst_eq (e : IVec S2x1000000 32) : val_main_v6 (F := F) e = Chains.dstOf e := rfl

theorem norm_eq (e : IVec S2x1000000 32) : val_main_v29 (F := F) e = Chains.normOf e := rfl

theorem agg1_eq (x0 : FVec F S100000x2 .f32) (e : IVec S2x1000000 32) (x4 : FVec F S2x64 .f32) :
    val_main_v43 (F := F) x0 e x4
      = Chains.aggregate (val_main_v3 (F := F) e) (val_main_v6 (F := F) e) (val_main_v29 (F := F) e) (val_main_v30 (F := F) x0 x4) := rfl

theorem agg2_eq (x0 : FVec F S100000x2 .f32) (e : IVec S2x1000000 32) (x4 : FVec F S2x64 .f32) (x5 : FVec F S64 .f32)
    (x6 : FVec F S64x64 .f32) :
    val_main_v61 (F := F) x0 e x4 x5 x6
      = Chains.aggregate (val_main_v3 (F := F) e) (val_main_v6 (F := F) e) (val_main_v29 (F := F) e)
          (val_main_v48 (F := F) x0 e x4 x5 x6) := rfl

theorem agg3_eq (x0 : FVec F S100000x2 .f32) (e : IVec S2x1000000 32) (x4 : FVec F S2x64 .f32) (x5 : FVec F S64 .f32)
    (x6 : FVec F S64x64 .f32) (x7 : FVec F S64 .f32) (x8 : FVec F S64x64 .f32) :
    val_main_v79 (F := F) x0 e x4 x5 x6 x7 x8
      = Chains.aggregate (val_main_v3 (F := F) e) (val_main_v6 (F := F) e) (val_main_v29 (F := F) e)
          (val_main_v66 (F := F) x0 e x4 x5 x6 x7 x8) := rfl

theorem bias1_row_eq (b : FVec F S64 .f32) : val_main_v44 (F := F) b = shapeCast S1x64 b (by decide) := by
  funext i
  rw [val_main_v44_apply]
  refine (shapeCast_apply b _ i (idx_main_v44 i) ?_).symm
  rw [Shape.rowMajor_val_two, Shape.rowMajor_val_one]
  have h0 : (i 0).val < 1 := (i 0).isLt
  show (i 1).val = (i 0).val * 64 + (i 1).val
  omega

theorem bias2_row_eq (b : FVec F S64 .f32) : val_main_v62 (F := F) b = shapeCast S1x64 b (by decide) := by
  funext i
  rw [val_main_v62_apply]
  refine (shapeCast_apply b _ i (idx_main_v62 i) ?_).symm
  rw [Shape.rowMajor_val_two, Shape.rowMajor_val_one]
  have h0 : (i 0).val < 1 := (i 0).isLt
  show (i 1).val = (i 0).val * 64 + (i 1).val
  omega

theorem bias3_row_eq (b : FVec F S64 .f32) : val_main_v80 (F := F) b = shapeCast S1x64 b (by decide) := by
  funext i
  rw [val_main_v80_apply]
  refine (shapeCast_apply b _ i (idx_main_v80 i) ?_).symm
  rw [Shape.rowMajor_val_two, Shape.rowMajor_val_one]
  have h0 : (i 0).val < 1 := (i 0).isLt
  show (i 1).val = (i 0).val * 64 + (i 1).val
  omega

theorem batch_col_eq (ids : IVec S100000 32) : val_main_v84 (F := F) ids = shapeCast S100000x1 ids (by decide) := by
  funext i
  rw [val_main_v84_apply]
  refine (shapeCast_apply ids _ i (idx_main_v84 i) ?_).symm
  rw [Shape.rowMajor_val_two, Shape.rowMajor_val_one]
  have h1 : (i 1).val < 1 := (i 1).isLt
  show (i 0).val = (i 0).val * 1 + (i 1).val
  omega

theorem bl_row_eq (bl : FVec F S5 .f32) : val_main_v97 (F := F) bl = shapeCast S1x5 bl (by decide) := by
  funext i
  rw [val_main_v97_apply]
  refine (shapeCast_apply bl _ i (idx_main_v97 i) ?_).symm
  rw [Shape.rowMajor_val_two, Shape.rowMajor_val_one]
  have h0 : (i 0).val < 1 := (i 0).isLt
  show (i 1).val = (i 0).val * 5 + (i 1).val
  omega

end Cert.ReferenceIdeal.Hst

end
-- ==== Proof.Bridge.lean ====
import proofs.«430252_j4990751998361_2_alg».proof.Proof.KI.Run
import proofs.«430252_j4990751998361_2_alg».proof.Proof.KI.HostK
import proofs.«430252_j4990751998361_2_alg».proof.Proof.KI.ValLin0
import proofs.«430252_j4990751998361_2_alg».proof.Proof.KI.ValLin2
import proofs.«430252_j4990751998361_2_alg».proof.Proof.KI.ValLin4
import proofs.«430252_j4990751998361_2_alg».proof.Proof.KI.ValBias1
import proofs.«430252_j4990751998361_2_alg».proof.Proof.KI.ValBias3
import proofs.«430252_j4990751998361_2_alg».proof.Proof.KI.ValBias5
import proofs.«430252_j4990751998361_2_alg».proof.Proof.KI.ValPool
import proofs.«430252_j4990751998361_2_alg».proof.Proof.RefStages
import proofs.«430252_j4990751998361_2_alg».proof.Proof.RefChains
import proofs.«430252_j4990751998361_2_alg».proof.Proof.Spec
import proofs.«430252_j4990751998361_2_alg».proof.Proof.Chains

set_option maxRecDepth 16384

noncomputable section

namespace Cert.Bridge

open Idealize.ShloMosaic Idealize.ShloMosaic.TcCoe Idealize.SL.Sem

abbrev row64 (b : (⟨1, ![64]⟩ : Shape).Idx → EReal) : Spec.Arr 1 64 := shapeCast (⟨2, ![1, 64]⟩ : Shape) b (by decide)
abbrev row5 (b : (⟨1, ![5]⟩ : Shape).Idx → EReal) : Spec.Arr 1 5 := shapeCast (⟨2, ![1, 5]⟩ : Shape) b (by decide)
abbrev idCol (b : (⟨1, ![100000]⟩ : Shape).Idx → BitVec 32) : Spec.IArr 100000 1 := shapeCast (⟨2, ![100000, 1]⟩ : Shape) b (by decide)

def agg (e : (⟨2, ![2, 1000000]⟩ : Shape).Idx → BitVec 32) (y : Spec.Arr 100000 64) : Spec.Arr 100000 64 :=
  Chains.aggregate (F := Ideal) (Chains.srcOf e) (Chains.dstOf e) (Chains.normOf (F := Ideal) e) y

def h1 (x : Spec.Arr 100000 2) (e : (⟨2, ![2, 1000000]⟩ : Shape).Idx → BitVec 32) (w1 : Spec.Arr 2 64)
    (b1 : (⟨1, ![64]⟩ : Shape).Idx → EReal) : Spec.Arr 100000 64 :=
  Spec.biasRelu (agg e (Spec.lin2 x w1)) (row64 b1)

def h2 (x : Spec.Arr 100000 2) (e : (⟨2, ![2, 1000000]⟩ : Shape).Idx → BitVec 32) (w1 : Spec.Arr 2 64)
    (b1 : (⟨1, ![64]⟩ : Shape).Idx → EReal) (w2 : Spec.Arr 64 64) (b2 : (⟨1, ![64]⟩ : Shape).Idx → EReal) : Spec.Arr 100000 64 :=
  Spec.biasRelu (agg e (Spec.lin64 (h1 x e w1 b1) w2)) (row64 b2)

def h3 (x : Spec.Arr 100000 2) (e : (⟨2, ![2, 1000000]⟩ : Shape).Idx → BitVec 32) (w1 : Spec.Arr 2 64)
    (b1 : (⟨1, ![64]⟩ : Shape).Idx → EReal) (w2 : Spec.Arr 64 64) (b2 : (⟨1, ![64]⟩ : Shape).Idx → EReal)
    (w3 : Spec.Arr 64 64) (b3 : (⟨1, ![64]⟩ : Shape).Idx → EReal) : Spec.Arr 100000 64 :=
  Spec.bias (agg e (Spec.lin64 (h2 x e w1 b1 w2 b2) w3)) (row64 b3)

def net (x : Spec.Arr 100000 2) (e : (⟨2, ![2, 1000000]⟩ : Shape).Idx → BitVec 32)
    (batch : (⟨1, ![100000]⟩ : Shape).Idx → BitVec 32) (ge : Spec.Arr 128 64) (w1 : Spec.Arr 2 64)
    (b1 : (⟨1, ![64]⟩ : Shape).Idx → EReal) (w2 : Spec.Arr 64 64) (b2 : (⟨1, ![64]⟩ : Shape).Idx → EReal)
    (w3 : Spec.Arr 64 64) (b3 : (⟨1, ![64]⟩ : Shape).Idx → EReal) (wl : Spec.Arr 128 5)
    (bl : (⟨1, ![5]⟩ : Shape).Idx → EReal) : Spec.Arr 128 5 :=
  Spec.pool (h3 x e w1 b1 w2 b2 w3 b3) (idCol batch) ge wl (row5 bl)

theorem agg_congr {s s' d d' : (⟨1, ![1100000]⟩ : Shape).Idx → BitVec 32} {n n' : (⟨1, ![1100000]⟩ : Shape).Idx → EReal}
    {y y' : Spec.Arr 100000 64} (hs : s = s') (hd : d = d') (hn : n = n') (hy : y = y') :
    Chains.aggregate (F := Ideal) s d n y = Chains.aggregate (F := Ideal) s' d' n' y' := by
  subst hs hd hn hy; rfl

theorem pool_congr {h h' : Spec.Arr 100000 64} {b b' : Spec.IArr 100000 1} {ge ge' : Spec.Arr 128 64} {wl wl' : Spec.Arr 128 5}
    {bl bl' : Spec.Arr 1 5} (hh : h = h') (hb : b = b') (hg : ge = ge') (hw : wl = wl') (hl : bl = bl') :
    Spec.pool h b ge wl bl = Spec.pool h' b' ge' wl' bl' := by
  subst hh hb hg hw hl; rfl

section Kernel

open Cert.KernelIdeal Cert.KernelIdeal.Gen Cert.KernelIdeal.Frm Cert.KernelIdeal.Val Cert.KernelIdeal.Hst

variable (m : (ℓ : Loc nD τ sig) → Buf (Elt Ideal) ℓ) (ρ : Dev nD → PrngReg)

theorem arg0_at3 (c : Dev nD) : W3 m ρ c (Proc.devRef .tc main_arg0) = m ((c : Thread nD τ).loc main_arg0) :=
  keep m ρ 0 c main_arg0 3 (by decide) (by decide)

theorem arg4_at3 (c : Dev nD) : W3 m ρ c (Proc.devRef .tc main_arg4) = m ((c : Thread nD τ).loc main_arg4) :=
  keep m ρ 0 c main_arg4 3 (by decide) (by decide)

theorem arg5_at4 (c : Dev nD) : W4 m ρ c (Proc.devRef .tc main_arg5) = m ((c : Thread nD τ).loc main_arg5) :=
  keep m ρ 0 c main_arg5 4 (by decide) (by decide)

theorem arg6_at6 (c : Dev nD) : W6 m ρ c (Proc.devRef .tc main_arg6) = m ((c : Thread nD τ).loc main_arg6) :=
  keep m ρ 0 c main_arg6 6 (by decide) (by decide)

theorem arg7_at7 (c : Dev nD) : W7 m ρ c (Proc.devRef .tc main_arg7) = m ((c : Thread nD τ).loc main_arg7) :=
  keep m ρ 0 c main_arg7 7 (by decide) (by decide)

theorem arg8_at9 (c : Dev nD) : W9 m ρ c (Proc.devRef .tc main_arg8) = m ((c : Thread nD τ).loc main_arg8) :=
  keep m ρ 0 c main_arg8 9 (by decide) (by decide)

theorem arg9_at10 (c : Dev nD) : W10 m ρ c (Proc.devRef .tc main_arg9) = m ((c : Thread nD τ).loc main_arg9) :=
  keep m ρ 0 c main_arg9 10 (by decide) (by decide)

theorem arg2_at12 (c : Dev nD) : W12 m ρ c (Proc.devRef .tc main_arg2) = m ((c : Thread nD τ).loc main_arg2) :=
  keep m ρ 0 c main_arg2 12 (by decide) (by decide)

theorem arg11_at12 (c : Dev nD) : W12 m ρ c (Proc.devRef .tc main_arg11) = m ((c : Thread nD τ).loc main_arg11) :=
  keep m ρ 0 c main_arg11 12 (by decide) (by decide)

theorem arg3_at13 (c : Dev nD) : W13 m ρ c (Proc.devRef .tc main_arg3) = m ((c : Thread nD τ).loc main_arg3) :=
  keep m ρ 0 c main_arg3 13 (by decide) (by decide)

theorem arg10_at13 (c : Dev nD) : W13 m ρ c (Proc.devRef .tc main_arg10) = m ((c : Thread nD τ).loc main_arg10) :=
  keep m ρ 0 c main_arg10 13 (by decide) (by decide)

theorem v3_10_3 (c : Dev nD) : W10 m ρ c (Proc.devRef .tc main_v3) = W3 m ρ c (Proc.devRef .tc main_v3) :=
  keep m ρ 3 c main_v3 7 (by decide) (by decide)

theorem v6_10_3 (c : Dev nD) : W10 m ρ c (Proc.devRef .tc main_v6) = W3 m ρ c (Proc.devRef .tc main_v6) :=
  keep m ρ 3 c main_v6 7 (by decide) (by decide)

theorem v29_10_3 (c : Dev nD) : W10 m ρ c (Proc.devRef .tc main_v29) = W3 m ρ c (Proc.devRef .tc main_v29) :=
  keep m ρ 3 c main_v29 7 (by decide) (by decide)

theorem v3_7_3 (c : Dev nD) : W7 m ρ c (Proc.devRef .tc main_v3) = W3 m ρ c (Proc.devRef .tc main_v3) :=
  keep m ρ 3 c main_v3 4 (by decide) (by decide)

theorem v6_7_3 (c : Dev nD) : W7 m ρ c (Proc.devRef .tc main_v6) = W3 m ρ c (Proc.devRef .tc main_v6) :=
  keep m ρ 3 c main_v6 4 (by decide) (by decide)

theorem v29_7_3 (c : Dev nD) : W7 m ρ c (Proc.devRef .tc main_v29) = W3 m ρ c (Proc.devRef .tc main_v29) :=
  keep m ρ 3 c main_v29 4 (by decide) (by decide)

theorem v3_4_3 (c : Dev nD) : W4 m ρ c (Proc.devRef .tc main_v3) = W3 m ρ c (Proc.devRef .tc main_v3) :=
  keep m ρ 3 c main_v3 1 (by decide) (by decide)

theorem v6_4_3 (c : Dev nD) : W4 m ρ c (Proc.devRef .tc main_v6) = W3 m ρ c (Proc.devRef .tc main_v6) :=
  keep m ρ 3 c main_v6 1 (by decide) (by decide)

theorem v29_4_3 (c : Dev nD) : W4 m ρ c (Proc.devRef .tc main_v29) = W3 m ρ c (Proc.devRef .tc main_v29) :=
  keep m ρ 3 c main_v29 1 (by decide) (by decide)

theorem v77_13_12 (c : Dev nD) : W13 m ρ c (Proc.devRef .tc main_v77) = W12 m ρ c (Proc.devRef .tc main_v77) :=
  keep m ρ 12 c main_v77 1 (by decide) (by decide)

theorem src_at3 (c : Dev nD) : (W3 m ρ c (Proc.devRef .tc main_v3) : IVec S1100000 32) = Chains.srcOf (m ((c : Thread nD τ).loc main_arg1)) :=
  norm_chain_v3 (W0 m ρ c)
theorem dst_at3 (c : Dev nD) : (W3 m ρ c (Proc.devRef .tc main_v6) : IVec S1100000 32) = Chains.dstOf (m ((c : Thread nD τ).loc main_arg1)) :=
  norm_chain_v6 (W0 m ρ c)
theorem nrm_at3 (c : Dev nD) : (W3 m ρ c (Proc.devRef .tc main_v29) : FVec Ideal S1100000 .f32) = Chains.normOf (F := Ideal) (m ((c : Thread nD τ).loc main_arg1)) :=
  norm_chain_v29 (W0 m ρ c)

theorem v30_at4 (c : Dev nD) :
    (W4 m ρ c (Proc.devRef .tc main_v30) : Spec.Arr 100000 64)
      = Spec.lin2 (m ((c : Thread nD τ).loc main_arg0)) (m ((c : Thread nD τ).loc main_arg4)) :=
  (exitW_arr _ _ launch0.win.arr_inj 2).trans ((lin0_arr (V3 m ρ) c).trans (congrArg₂ Spec.lin2 (arg0_at3 m ρ c) (arg4_at3 m ρ c)))

theorem v43_at5 (c : Dev nD) :
    (W5 m ρ c (Proc.devRef .tc main_v43) : Spec.Arr 100000 64)
      = agg (m ((c : Thread nD τ).loc main_arg1)) (Spec.lin2 (m ((c : Thread nD τ).loc main_arg0)) (m ((c : Thread nD τ).loc main_arg4))) :=
  (agg1 (W4 m ρ c)).trans (agg_congr ((v3_4_3 m ρ c).trans (src_at3 m ρ c)) ((v6_4_3 m ρ c).trans (dst_at3 m ρ c))
    ((v29_4_3 m ρ c).trans (nrm_at3 m ρ c)) (v30_at4 m ρ c))

theorem v44_at5 (c : Dev nD) :
    (W5 m ρ c (Proc.devRef .tc main_v44) : Spec.Arr 1 64) = row64 (m ((c : Thread nD τ).loc main_arg5)) :=
  (bias1_row (W4 m ρ c)).trans (congrArg row64 (arg5_at4 m ρ c))

theorem v45_at6 (c : Dev nD) :
    (W6 m ρ c (Proc.devRef .tc main_v45) : Spec.Arr 100000 64)
      = h1 (m ((c : Thread nD τ).loc main_arg0)) (m ((c : Thread nD τ).loc main_arg1)) (m ((c : Thread nD τ).loc main_arg4))
          (m ((c : Thread nD τ).loc main_arg5)) :=
  (exitW_arr _ _ launch1.win.arr_inj 2).trans ((bias1_arr (V5 m ρ) c).trans (congrArg₂ Spec.biasRelu (v43_at5 m ρ c) (v44_at5 m ρ c)))

theorem v46_at7 (c : Dev nD) :
    (W7 m ρ c (Proc.devRef .tc main_v46) : Spec.Arr 100000 64)
      = Spec.lin64 (h1 (m ((c : Thread nD τ).loc main_arg0)) (m ((c : Thread nD τ).loc main_arg1)) (m ((c : Thread nD τ).loc main_arg4))
          (m ((c : Thread nD τ).loc main_arg5))) (m ((c : Thread nD τ).loc main_arg6)) :=
  (exitW_arr _ _ launch2.win.arr_inj 2).trans ((lin2_arr (V6 m ρ) c).trans (congrArg₂ Spec.lin64 (v45_at6 m ρ c) (arg6_at6 m ρ c)))

theorem v59_at8 (c : Dev nD) :
    (W8 m ρ c (Proc.devRef .tc main_v59) : Spec.Arr 100000 64)
      = agg (m ((c : Thread nD τ).loc main_arg1))
          (Spec.lin64 (h1 (m ((c : Thread nD τ).loc main_arg0)) (m ((c : Thread nD τ).loc main_arg1)) (m ((c : Thread nD τ).loc main_arg4))
            (m ((c : Thread nD τ).loc main_arg5))) (m ((c : Thread nD τ).loc main_arg6))) :=
  (agg2 (W7 m ρ c)).trans (agg_congr ((v3_7_3 m ρ c).trans (src_at3 m ρ c)) ((v6_7_3 m ρ c).trans (dst_at3 m ρ c))
    ((v29_7_3 m ρ c).trans (nrm_at3 m ρ c)) (v46_at7 m ρ c))

theorem v60_at8 (c : Dev nD) :
    (W8 m ρ c (Proc.devRef .tc main_v60) : Spec.Arr 1 64) = row64 (m ((c : Thread nD τ).loc main_arg7)) :=
  (bias2_row (W7 m ρ c)).trans (congrArg row64 (arg7_at7 m ρ c))

theorem v61_at9 (c : Dev nD) :
    (W9 m ρ c (Proc.devRef .tc main_v61) : Spec.Arr 100000 64)
      = h2 (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7)) :=
  (exitW_arr _ _ launch3.win.arr_inj 2).trans ((bias3_arr (V8 m ρ) c).trans (congrArg₂ Spec.biasRelu (v59_at8 m ρ c) (v60_at8 m ρ c)))

theorem v62_at10 (c : Dev nD) :
    (W10 m ρ c (Proc.devRef .tc main_v62) : Spec.Arr 100000 64)
      = Spec.lin64 (h2 (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7)))
          (m ((c : Thread nD τ).loc main_arg8)) :=
  (exitW_arr _ _ launch4.win.arr_inj 2).trans ((lin4_arr (V9 m ρ) c).trans (congrArg₂ Spec.lin64 (v61_at9 m ρ c) (arg8_at9 m ρ c)))

theorem v75_at11 (c : Dev nD) :
    (W11 m ρ c (Proc.devRef .tc main_v75) : Spec.Arr 100000 64)
      = agg (m ((c : Thread nD τ).loc main_arg1))
          (Spec.lin64 (h2 (m ((c : Thread nD τ).loc main_arg0)) (m ((c : Thread nD τ).loc main_arg1)) (m ((c : Thread nD τ).loc main_arg4))
            (m ((c : Thread nD τ).loc main_arg5)) (m ((c : Thread nD τ).loc main_arg6)) (m ((c : Thread nD τ).loc main_arg7)))
            (m ((c : Thread nD τ).loc main_arg8))) :=
  (agg3 (W10 m ρ c)).trans (agg_congr ((v3_10_3 m ρ c).trans (src_at3 m ρ c)) ((v6_10_3 m ρ c).trans (dst_at3 m ρ c))
    ((v29_10_3 m ρ c).trans (nrm_at3 m ρ c)) (v62_at10 m ρ c))

theorem v76_at11 (c : Dev nD) :
    (W11 m ρ c (Proc.devRef .tc main_v76) : Spec.Arr 1 64) = row64 (m ((c : Thread nD τ).loc main_arg9)) :=
  (bias3_row (W10 m ρ c)).trans (congrArg row64 (arg9_at10 m ρ c))

theorem v77_at12 (c : Dev nD) :
    (W12 m ρ c (Proc.devRef .tc main_v77) : Spec.Arr 100000 64)
      = h3 (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) :=
  (exitW_arr _ _ launch5.win.arr_inj 2).trans ((bias5_arr (V11 m ρ) c).trans (congrArg₂ Spec.bias (v75_at11 m ρ c) (v76_at11 m ρ c)))

theorem v78_at13 (c : Dev nD) :
    (W13 m ρ c (Proc.devRef .tc main_v78) : Spec.IArr 100000 1) = idCol (m ((c : Thread nD τ).loc main_arg2)) :=
  (batch_col (W12 m ρ c)).trans (congrArg idCol (arg2_at12 m ρ c))

theorem v79_at13 (c : Dev nD) :
    (W13 m ρ c (Proc.devRef .tc main_v79) : Spec.Arr 1 5) = row5 (m ((c : Thread nD τ).loc main_arg11)) :=
  (bl_row (W12 m ρ c)).trans (congrArg row5 (arg11_at12 m ρ c))

theorem kernel_net (c : Dev nD) :
    (W14 m ρ c (Proc.devRef .tc main_v80) : Spec.Arr 128 5)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) :=
  (exitW_arr _ _ launch6.win.arr_inj 5).trans ((pool_arr (V13 m ρ) c).trans
    (pool_congr ((v77_13_12 m ρ c).trans (v77_at12 m ρ c)) (v78_at13 m ρ c) (arg3_at13 m ρ c) (arg10_at13 m ρ c) (v79_at13 m ρ c)))

end Kernel

section Reference

open Cert.ReferenceIdeal Cert.ReferenceIdeal.ReadP Cert.ReferenceIdeal.Stg Cert.ReferenceIdeal.Hst

theorem val_net (x0 : (⟨S100000x2, .f32⟩ : BufTy).Contents (Elt Ideal)) (x1 : (⟨S2x1000000, .i32⟩ : BufTy).Contents (Elt Ideal))
    (x2 : (⟨S100000, .i32⟩ : BufTy).Contents (Elt Ideal)) (x3 : (⟨S128x64, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S128x5, .f32⟩ : BufTy).Contents (Elt Ideal)) (x11 : (⟨S5, .f32⟩ : BufTy).Contents (Elt Ideal)) :
    val_main_v100 (F := Ideal) x0 x1 x2 x3 x4 x5 x6 x7 x8 x9 x10 x11 = net x0 x1 x2 x3 x4 x5 x6 x7 x8 x9 x10 x11 := by
  rw [pool_stage, bias3_stage, agg3_eq, lin3_stage, bias2_stage, agg2_eq, lin2_stage, bias1_stage, agg1_eq, lin1_stage,
    src_eq, dst_eq, norm_eq, bias1_row_eq, bias2_row_eq, bias3_row_eq, batch_col_eq, bl_row_eq]
  rfl

theorem reference_net (m' : (ℓ : Loc nD τ sig) → Buf (Elt Ideal) ℓ) (c : Dev nD) :
    Cert.ReferenceIdeal.ValueP.res_main_v100 m' c
      = net (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5))
          (m' ((c.tc : Thread nD τ).loc main_arg6)) (m' ((c.tc : Thread nD τ).loc main_arg7)) (m' ((c.tc : Thread nD τ).loc main_arg8))
          (m' ((c.tc : Thread nD τ).loc main_arg9)) (m' ((c.tc : Thread nD τ).loc main_arg10)) (m' ((c.tc : Thread nD τ).loc main_arg11)) :=
  (val_main_v100_eq m' c).trans (val_net _ _ _ _ _ _ _ _ _ _ _ _)

end Reference

end Cert.Bridge

end
-- ==== Proof.lean ====
import proofs.«430252_j4990751998361_2_alg».proof.Defs
import proofs.«430252_j4990751998361_2_alg».proof.Proof.Gen.Kernel
import proofs.«430252_j4990751998361_2_alg».proof.Proof.Gen.KernelIdeal
import proofs.«430252_j4990751998361_2_alg».proof.Proof.Gen.ReferenceIdeal
import proofs.«430252_j4990751998361_2_alg».proof.Proof.Gen.Pre_finite_inputs
import proofs.«430252_j4990751998361_2_alg».proof.Proof.K.Run
import proofs.«430252_j4990751998361_2_alg».proof.Proof.KI.Run
import proofs.«430252_j4990751998361_2_alg».proof.Proof.RefRunP
import proofs.«430252_j4990751998361_2_alg».proof.Proof.Bridge

noncomputable section

namespace Cert.Proof

open Idealize.ShloMosaic Idealize.SL.Sem

theorem frame_kernel : Cert.frame_Kernel := fun m ρ _ =>
  (θ_run _ _ _).mono (fun _ h c => (h c).2) (Cert.Kernel.Frm.run (F := Bits) m ρ)

theorem frame_kernelIdeal : Cert.frame_KernelIdeal := fun m ρ _ =>
  (θ_run _ _ _).mono (fun _ h c => (h c).2) (Cert.KernelIdeal.Frm.run (F := Ideal) m ρ)

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

-- From memories that agree on the arguments both programs end at the network's value of those arguments.
theorem algebraic : Cert.algebraic_KernelIdeal_ReferenceIdeal := by
  intro m ρ m' ρ' _ hagree
  refine ⟨_, Cert.KernelIdeal.Frm.run (F := Ideal) m ρ, ?_⟩
  refine (θ_run (Cert.ReferenceIdeal.defs (F := Ideal)) _ _).mono (fun r h c => ⟨(h c).1.trans ?_, (h c).2⟩)
    (Cert.ReferenceIdeal.ValueP.run (F := Ideal) m' ρ')
  have hk := Cert.Bridge.kernel_net m ρ c
  have hr := Cert.Bridge.reference_net m' c
  obtain ⟨e0, e1, e2, e3, e4, e5, e6, e7, e8, e9, e10, e11⟩ := hagree c
  rw [e0, e1, e2, e3, e4, e5, e6, e7, e8, e9, e10, e11] at hr
  exact hr.trans hk.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
